-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x2 : Shape := ⟨2, ![1600000, 2]⟩
abbrev S100000 : Shape := ⟨1, ![100000]⟩
abbrev S2x64 : Shape := ⟨2, ![2, 64]⟩
abbrev S64 : Shape := ⟨1, ![64]⟩
abbrev S64x128 : Shape := ⟨2, ![64, 128]⟩
abbrev S128 : Shape := ⟨1, ![128]⟩
abbrev S2x128 : Shape := ⟨2, ![2, 128]⟩
abbrev S128x128 : Shape := ⟨2, ![128, 128]⟩
abbrev S128x256 : Shape := ⟨2, ![128, 256]⟩
abbrev S256 : Shape := ⟨1, ![256]⟩
abbrev S256x32 : Shape := ⟨2, ![256, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x2 : S_.BroadcastsInDim S1600000x2 (![] : Fin 0 → Fin S1600000x2.rank)
  reducesTo_S1600000x2_S_d0_1 : S1600000x2.ReducesTo [0, 1] S_
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_

variable [Facts]

def fn_part5 {F : FTy → Type} [FloatOps F] (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  main_v88

def fn_part4 {F : FTy → Type} [FloatOps F] (main_arg16 : FVec F S128x256 .f32) (main_arg17 : FVec F S256 .f32) (main_arg18 : FVec F S256x32 .f32) (main_arg19 : FVec F S32 .f32) (main_v63 : IVec S_ 1) (main_v67 : IVec S_ 1) : IVec S_ 1 :=
  let main_v68 : IVec S_ 1 := andi main_v63 main_v67
  let main_v69 : FVec F S128x256 .f32 := Host.absf main_arg16
  let main_cst_26 : FVec F S_ .f32 := constant S_ .f32 0x7F800000#32
  let main_v70 : FVec F S128x256 .f32 := broadcastInDim S128x256 ![] bcast_S_S128x256 main_cst_26
  let main_v71 : IVec S128x256 1 := cmpf .olt main_v69 main_v70
  let main_c_27 : IVec S_ 1 := constantI S_ 1 1#1
  let main_v72 : IVec S_ 1 := (fun x v => Host.reduce IntOp.andi x v reducesTo_S128x256_S_d0_1 h_S_) main_v71 main_c_27
  let main_v73 : IVec S_ 1 := andi main_v68 main_v72
  let main_v74 : FVec F S256 .f32 := Host.absf main_arg17
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x32 .f32 := Host.absf main_arg18
  let main_cst_30 : FVec F S_ .f32 := constant S_ .f32 0x7F800000#32
  let main_v80 : FVec F S256x32 .f32 := broadcastInDim S256x32 ![] bcast_S_S256x32 main_cst_30
  let main_v81 : IVec S256x32 1 := cmpf .olt main_v79 main_v80
  let main_c_31 : IVec S_ 1 := constantI S_ 1 1#1
  let main_v82 : IVec S_ 1 := (fun x v => Host.reduce IntOp.andi x v reducesTo_S256x32_S_d0_1 h_S_) main_v81 main_c_31
  let main_v83 : IVec S_ 1 := andi main_v78 main_v82
  let main_v84 : FVec F S32 .f32 := Host.absf main_arg19
  let main_cst_32 : FVec F S_ .f32 := constant S_ .f32 0x7F800000#32
  fn_part5 (F := F) main_v83 main_v84 main_cst_32

def fn_part3 {F : FTy → Type} [FloatOps F] (main_arg13 : FVec F S128 .f32) (main_arg14 : FVec F S128x128 .f32) (main_arg15 : FVec F S128 .f32) (main_arg16 : FVec F S128x256 .f32) (main_arg17 : FVec F S256 .f32) (main_arg18 : FVec F S256x32 .f32) (main_arg19 : FVec F S32 .f32) (main_v48 : IVec S_ 1) (main_v49 : FVec F S2x128 .f32) (main_v50 : FVec F S2x128 .f32) : IVec S_ 1 :=
  let main_v51 : IVec S2x128 1 := cmpf .olt main_v49 main_v50
  let main_c_19 : IVec S_ 1 := constantI S_ 1 1#1
  let main_v52 : IVec S_ 1 := (fun x v => Host.reduce IntOp.andi x v reducesTo_S2x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_v63 main_v67

def fn_part2 {F : FTy → Type} [FloatOps F] (main_arg9 : FVec F S128 .f32) (main_arg10 : FVec F S128x128 .f32) (main_arg11 : FVec F S128 .f32) (main_arg12 : FVec F S2x128 .f32) (main_arg13 : FVec F S128 .f32) (main_arg14 : FVec F S128x128 .f32) (main_arg15 : FVec F S128 .f32) (main_arg16 : FVec F S128x256 .f32) (main_arg17 : FVec F S256 .f32) (main_arg18 : FVec F S256x32 .f32) (main_arg19 : FVec F S32 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S2x128 .f32 := Host.absf main_arg12
  let main_cst_18 : FVec F S_ .f32 := constant S_ .f32 0x7F800000#32
  let main_v50 : FVec F S2x128 .f32 := broadcastInDim S2x128 ![] bcast_S_S2x128 main_cst_18
  fn_part3 (F := F) main_arg13 main_arg14 main_arg15 main_arg16 main_arg17 main_arg18 main_arg19 main_v48 main_v49 main_v50

def fn_part1 {F : FTy → Type} [FloatOps F] (main_arg6 : FVec F S64x128 .f32) (main_arg7 : FVec F S128 .f32) (main_arg8 : FVec F S2x128 .f32) (main_arg9 : FVec F S128 .f32) (main_arg10 : FVec F S128x128 .f32) (main_arg11 : FVec F S128 .f32) (main_arg12 : FVec F S2x128 .f32) (main_arg13 : FVec F S128 .f32) (main_arg14 : FVec F S128x128 .f32) (main_arg15 : FVec F S128 .f32) (main_arg16 : FVec F S128x256 .f32) (main_arg17 : FVec F S256 .f32) (main_arg18 : FVec F S256x32 .f32) (main_arg19 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S2x128 .f32 := Host.absf main_arg8
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S100000x64 .f32) (main_arg1 : IVec S2x1600000 32) (main_arg2 : FVec F S1600000x2 .f32) (main_arg3 : IVec S100000 32) (main_arg4 : FVec F S2x64 .f32) (main_arg5 : FVec F S64 .f32) (main_arg6 : FVec F S64x128 .f32) (main_arg7 : FVec F S128 .f32) (main_arg8 : FVec F S2x128 .f32) (main_arg9 : FVec F S128 .f32) (main_arg10 : FVec F S128x128 .f32) (main_arg11 : FVec F S128 .f32) (main_arg12 : FVec F S2x128 .f32) (main_arg13 : FVec F S128 .f32) (main_arg14 : FVec F S128x128 .f32) (main_arg15 : FVec F S128 .f32) (main_arg16 : FVec F S128x256 .f32) (main_arg17 : FVec F S256 .f32) (main_arg18 : FVec F S256x32 .f32) (main_arg19 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x2 .f32 := Host.absf main_arg2
  let main_cst_0 : FVec F S_ .f32 := constant S_ .f32 0x7F800000#32
  let main_v5 : FVec F S1600000x2 .f32 := broadcastInDim S1600000x2 ![] bcast_S_S1600000x2 main_cst_0
  let main_v6 : IVec S1600000x2 1 := cmpf .olt main_v4 main_v5
  let main_c_1 : IVec S_ 1 := constantI S_ 1 1#1
  let main_v7 : IVec S_ 1 := (fun x v => Host.reduce IntOp.andi x v reducesTo_S1600000x2_S_d0_1 h_S_) main_v6 main_c_1
  let main_v8 : IVec S_ 1 := andi main_v3 main_v7
  let main_v9 : FVec F S2x64 .f32 := Host.absf main_arg4
  let main_cst_2 : FVec F S_ .f32 := constant S_ .f32 0x7F800000#32
  let main_v10 : FVec F S2x64 .f32 := broadcastInDim S2x64 ![] bcast_S_S2x64 main_cst_2
  let main_v11 : IVec S2x64 1 := cmpf .olt main_v9 main_v10
  let main_c_3 : IVec S_ 1 := constantI S_ 1 1#1
  let main_v12 : IVec S_ 1 := (fun x v => Host.reduce IntOp.andi x v reducesTo_S2x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S100000x64 : Shape := ⟨2, ![100000, 64]⟩
abbrev S2x1600000 : Shape := ⟨2, ![2, 1600000]⟩
abbrev S1600000x2 : Shape := ⟨2, ![1600000, 2]⟩
abbrev S100000 : Shape := ⟨1, ![100000]⟩
abbrev S2x64 : Shape := ⟨2, ![2, 64]⟩
abbrev S64 : Shape := ⟨1, ![64]⟩
abbrev S64x128 : Shape := ⟨2, ![64, 128]⟩
abbrev S128 : Shape := ⟨1, ![128]⟩
abbrev S2x128 : Shape := ⟨2, ![2, 128]⟩
abbrev S128x128 : Shape := ⟨2, ![128, 128]⟩
abbrev S128x256 : Shape := ⟨2, ![128, 256]⟩
abbrev S256 : Shape := ⟨1, ![256]⟩
abbrev S256x32 : Shape := ⟨2, ![256, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x128 : Shape := ⟨2, ![100000, 128]⟩
abbrev S5000x64 : Shape := ⟨2, ![5000, 64]⟩
abbrev S5000x128 : Shape := ⟨2, ![5000, 128]⟩
abbrev S1x128 : Shape := ⟨2, ![1, 128]⟩
abbrev S1600000x128 : Shape := ⟨2, ![1600000, 128]⟩
abbrev S100000x1 : Shape := ⟨2, ![100000, 1]⟩
abbrev S512x128 : Shape := ⟨2, ![512, 128]⟩
abbrev S1000x128 : Shape := ⟨2, ![1000, 128]⟩
abbrev S1000x1 : Shape := ⟨2, ![1000, 1]⟩
abbrev S1000x512 : Shape := ⟨2, ![1000, 512]⟩
abbrev S512x32 : Shape := ⟨2, ![512, 32]⟩
abbrev S512x256 : Shape := ⟨2, ![512, 256]⟩
abbrev S1x256 : Shape := ⟨2, ![1, 256]⟩
abbrev S1x32 : Shape := ⟨2, ![1, 32]⟩

abbrev nBuf : Space → Nat
  | .hbm => 99
  | .vmem => 36
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x2, .f32⟩
  | .hbm, ⟨3, _⟩ => ⟨S100000, .i32⟩
  | .hbm, ⟨4, _⟩ => ⟨S2x64, .f32⟩
  | .hbm, ⟨5, _⟩ => ⟨S64, .f32⟩
  | .hbm, ⟨6, _⟩ => ⟨S64x128, .f32⟩
  | .hbm, ⟨7, _⟩ => ⟨S128, .f32⟩
  | .hbm, ⟨8, _⟩ => ⟨S2x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S2x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x256, .f32⟩
  | .hbm, ⟨17, _⟩ => ⟨S256, .f32⟩
  | .hbm, ⟨18, _⟩ => ⟨S256x32, .f32⟩
  | .hbm, ⟨19, _⟩ => ⟨S32, .f32⟩
  | .hbm, ⟨20, _⟩ => ⟨S1x1600000, .i32⟩
  | .hbm, ⟨21, _⟩ => ⟨S1600000, .i32⟩
  | .hbm, ⟨22, _⟩ => ⟨S1x1600000, .i32⟩
  | .hbm, ⟨23, _⟩ => ⟨S1600000, .i32⟩
  | .hbm, ⟨24, _⟩ => ⟨S100000x64, .bf16⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .bf16⟩
  | .hbm, ⟨34, _⟩ => ⟨S1600000x64, .f32⟩
  | .hbm, ⟨35, _⟩ => ⟨S1600000x64, .f32⟩
  | .hbm, ⟨36, _⟩ => ⟨S1x64, .f32⟩
  | .hbm, ⟨37, _⟩ => ⟨S1600000x64, .f32⟩
  | .hbm, ⟨38, _⟩ => ⟨S1600000x64, .f32⟩
  | .hbm, ⟨39, _⟩ => ⟨S1600000x64, .f32⟩
  | .hbm, ⟨40, _⟩ => ⟨S_, .f32⟩
  | .hbm, ⟨41, _⟩ => ⟨S1600000x64, .f32⟩
  | .hbm, ⟨42, _⟩ => ⟨S1600000x64, .f32⟩
  | .hbm, ⟨43, _⟩ => ⟨S_, .f32⟩
  | .hbm, ⟨44, _⟩ => ⟨S100000x64, .f32⟩
  | .hbm, ⟨45, _⟩ => ⟨S1600000x1, .i32⟩
  | .hbm, ⟨46, _⟩ => ⟨S100000x64, .f32⟩
  | .hbm, ⟨47, _⟩ => ⟨S100000x128, .f32⟩
  | .hbm, ⟨48, _⟩ => ⟨S100000x128, .bf16⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .bf16⟩
  | .hbm, ⟨58, _⟩ => ⟨S1600000x128, .f32⟩
  | .hbm, ⟨59, _⟩ => ⟨S1600000x128, .f32⟩
  | .hbm, ⟨60, _⟩ => ⟨S1x128, .f32⟩
  | .hbm, ⟨61, _⟩ => ⟨S1600000x128, .f32⟩
  | .hbm, ⟨62, _⟩ => ⟨S1600000x128, .f32⟩
  | .hbm, ⟨63, _⟩ => ⟨S1600000x128, .f32⟩
  | .hbm, ⟨64, _⟩ => ⟨S_, .f32⟩
  | .hbm, ⟨65, _⟩ => ⟨S1600000x128, .f32⟩
  | .hbm, ⟨66, _⟩ => ⟨S1600000x128, .f32⟩
  | .hbm, ⟨67, _⟩ => ⟨S_, .f32⟩
  | .hbm, ⟨68, _⟩ => ⟨S100000x128, .f32⟩
  | .hbm, ⟨69, _⟩ => ⟨S1600000x1, .i32⟩
  | .hbm, ⟨70, _⟩ => ⟨S100000x128, .f32⟩
  | .hbm, ⟨71, _⟩ => ⟨S100000x128, .f32⟩
  | .hbm, ⟨72, _⟩ => ⟨S100000x128, .bf16⟩
  | .hbm, ⟨73, _⟩ => ⟨S_, .i32⟩
  | .hbm, ⟨74, _⟩ => ⟨S1600000, .i32⟩
  | .hbm, ⟨75, _⟩ => ⟨S1600000, .i1⟩
  | .hbm, ⟨76, _⟩ => ⟨S_, .i32⟩
  | .hbm, ⟨77, _⟩ => ⟨S1600000, .i32⟩
  | .hbm, ⟨78, _⟩ => ⟨S1600000, .i32⟩
  | .hbm, ⟨79, _⟩ => ⟨S1600000, .i32⟩
  | .hbm, ⟨80, _⟩ => ⟨S1600000x1, .i32⟩
  | .hbm, ⟨81, _⟩ => ⟨S1600000x128, .bf16⟩
  | .hbm, ⟨82, _⟩ => ⟨S1600000x128, .f32⟩
  | .hbm, ⟨83, _⟩ => ⟨S1600000x128, .f32⟩
  | .hbm, ⟨84, _⟩ => ⟨S1x128, .f32⟩
  | .hbm, ⟨85, _⟩ => ⟨S1600000x128, .f32⟩
  | .hbm, ⟨86, _⟩ => ⟨S1600000x128, .f32⟩
  | .hbm, ⟨87, _⟩ => ⟨S1600000x128, .f32⟩
  | .hbm, ⟨88, _⟩ => ⟨S_, .f32⟩
  | .hbm, ⟨89, _⟩ => ⟨S1600000x128, .f32⟩
  | .hbm, ⟨90, _⟩ => ⟨S1600000x128, .f32⟩
  | .hbm, ⟨91, _⟩ => ⟨S_, .f32⟩
  | .hbm, ⟨92, _⟩ => ⟨S100000x128, .f32⟩
  | .hbm, ⟨93, _⟩ => ⟨S1600000x1, .i32⟩
  | .hbm, ⟨94, _⟩ => ⟨S100000x128, .f32⟩
  | .hbm, ⟨95, _⟩ => ⟨S100000x128, .f32⟩
  | .hbm, ⟨96, _⟩ => ⟨S100000x1, .i32⟩
  | .hbm, ⟨97, _⟩ => ⟨S512x128, .f32⟩
  | .hbm, ⟨98, _⟩ => ⟨S512x32, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S128, .f32⟩
  | .local _ .vmem, ⟨22, _⟩ => ⟨S5000x128, .f32⟩
  | .local _ .vmem, ⟨23, _⟩ => ⟨S5000x128, .f32⟩
  | .local _ .vmem, ⟨24, _⟩ => ⟨S1000x128, .f32⟩
  | .local _ .vmem, ⟨25, _⟩ => ⟨S1000x128, .f32⟩
  | .local _ .vmem, ⟨26, _⟩ => ⟨S1000x1, .i32⟩
  | .local _ .vmem, ⟨27, _⟩ => ⟨S1000x1, .i32⟩
  | .local _ .vmem, ⟨28, _⟩ => ⟨S512x128, .f32⟩
  | .local _ .vmem, ⟨29, _⟩ => ⟨S512x128, .f32⟩
  | .local _ .vmem, ⟨30, _⟩ => ⟨S512x128, .f32⟩
  | .local _ .vmem, ⟨31, _⟩ => ⟨S128x256, .f32⟩
  | .local _ .vmem, ⟨32, _⟩ => ⟨S256, .f32⟩
  | .local _ .vmem, ⟨33, _⟩ => ⟨S256x32, .f32⟩
  | .local _ .vmem, ⟨34, _⟩ => ⟨S32, .f32⟩
  | .local _ .vmem, ⟨35, _⟩ => ⟨S512x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_c : Ref sig .tc := ⟨.hbm, 25, rfl⟩
abbrev main_v5 : Ref sig .tc := ⟨.hbm, 26, rfl⟩
abbrev main_v6 : Ref sig .tc := ⟨.hbm, 27, rfl⟩
abbrev main_c_0 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_call0_cst : Ref sig .tc := ⟨.hbm, 40, rfl⟩
abbrev main_call0_v0 : Ref sig .tc := ⟨.hbm, 41, rfl⟩
abbrev main_v18 : Ref sig .tc := ⟨.hbm, 42, rfl⟩
abbrev main_cst : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_1 : Ref sig .tc := ⟨.hbm, 49, rfl⟩
abbrev main_v24 : Ref sig .tc := ⟨.hbm, 50, rfl⟩
abbrev main_v25 : Ref sig .tc := ⟨.hbm, 51, rfl⟩
abbrev main_c_2 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_call1_cst : Ref sig .tc := ⟨.hbm, 64, rfl⟩
abbrev main_call1_v0 : Ref sig .tc := ⟨.hbm, 65, rfl⟩
abbrev main_v37 : Ref sig .tc := ⟨.hbm, 66, rfl⟩
abbrev main_cst_3 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c_4 : Ref sig .tc := ⟨.hbm, 73, rfl⟩
abbrev main_v43 : Ref sig .tc := ⟨.hbm, 74, rfl⟩
abbrev main_v44 : Ref sig .tc := ⟨.hbm, 75, rfl⟩
abbrev main_c_5 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_call2_cst : Ref sig .tc := ⟨.hbm, 88, rfl⟩
abbrev main_call2_v0 : Ref sig .tc := ⟨.hbm, 89, rfl⟩
abbrev main_v56 : Ref sig .tc := ⟨.hbm, 90, rfl⟩
abbrev main_cst_6 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_scratch0 : Ref sig .tc := ⟨.vmem, 29, rfl⟩
abbrev cc4_stg0_0 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc4_sem0_0 : DmaSem sig := 29
abbrev cc4_sem1_0 : DmaSem sig := 30
abbrev cc4_sem2_0 : DmaSem sig := 31
abbrev cc4_sem3_0 : DmaSem sig := 32
abbrev cc4_sem4_0 : DmaSem sig := 33
abbrev cc4_sem5_0 : DmaSem sig := 34

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![100], ![false]⟩

def k3_cond2 (i : grid3.Coords) : BitVec 1 :=
  let arg0 : BitVec 32 := BitVec.ofNat 32 (i 0).val
  let c99_i32 : BitVec 32 := 99#32
  let v18 : BitVec 1 := Scalar.cmpi .eq arg0 c99_i32
  let v19 : BitVec 32 := Scalar.extui v18
  let c0_i32_8 : BitVec 32 := 0#32
  let v20 : BitVec 1 := Scalar.cmpi .ne v19 c0_i32_8
  v20

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S512x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S512x32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S100000_S100000x1 : S100000.ShapeCasts S100000x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1000x512_d1_w32 : S1000x512.Iotas .tc 32 [1]
  broadcasts_S1000x1_S1000x512 : S1000x1.Broadcasts S1000x512
  natLt_1_32 : 1 < 32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S256x32_S256x32_0_0 : ∀ a, (![0, 0] : Fin 2 → Nat) a + S256x32.size a ≤ S256x32.size a
  h_S256x32 : 0 < S256x32.numel
  inb_S32_S32_0 : ∀ a, (![0] : Fin 1 → Nat) a + S32.size a ≤ S32.size a
  h_S32 : 0 < S32.numel
  shapeCasts_S32_S1x32 : S32.ShapeCasts S1x32
  broadcasts_S1x32_S512x32 : S1x32.Broadcasts S512x32
  inb_S512x32_S512x32_0_0 : ∀ a, (![0, 0] : Fin 2 → Nat) a + S512x32.size a ≤ S512x32.size a
  h_S512x32 : 0 < S512x32.numel
  gather_S100000x64_S1600000x1_S1600000x64_1_0_n_n_0_1_164_wf : GatherDims.WF S100000x64 S1600000x1 S1600000x64 [1] [0] [] [0] [] 1 ![1, 64]
  dot_S1600000x2_S2x64_S1600000x64_1_0_0_1_n_n_wf : DotDims.WF S1600000x2 S2x64 S1600000x64 [1] [0] [0] [1] [] []
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  dot_S1600000x2_S2x128_S1600000x128_1_0_0_1_n_n_wf : DotDims.WF S1600000x2 S2x128 S1600000x128 [1] [0] [0] [1] [] []
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S1000x512_S1000x128_S512x128_0_0_1_1_n_n_wf : DotDims.WF S1000x512 S1000x128 S512x128 [0] [0] [1] [1] [] []
  dot_S512x128_S128x256_S512x256_1_0_0_1_n_n_wf : DotDims.WF S512x128 S128x256 S512x256 [1] [0] [0] [1] [] []
  dot_S512x256_S256x32_S512x32_1_0_0_1_n_n_wf : DotDims.WF S512x256 S256x32 S512x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S100000x128.size a
  hwx3_0 : ∀ i : grid3.Coords, EltTy.bits .f32 = 32 ∨ (Rect.block (s := S100000x128) S1000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x1.size a ≤ S100000x1.size a
  hwx3_1 : ∀ i : grid3.Coords, EltTy.bits .i32 = 32 ∨ (Rect.block (s := S100000x1) S1000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S512x128.size a ≤ S512x128.size a
  hwx3_2 : ∀ i : grid3.Coords, EltTy.bits .f32 = 32 ∨ (Rect.block (s := S512x128) S512x128.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x128.size a ≤ S512x128.size a
  hwx4_0 : ∀ i : grid4.Coords, EltTy.bits .f32 = 32 ∨ (Rect.block (s := S512x128) S512x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x256.size a ≤ S128x256.size a
  hwx4_1 : ∀ i : grid4.Coords, EltTy.bits .f32 = 32 ∨ (Rect.block (s := S128x256) S128x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256.size a ≤ S256.size a
  hwx4_2 : ∀ i : grid4.Coords, EltTy.bits .f32 = 32 ∨ (Rect.block (s := S256) S256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x32.size a ≤ S256x32.size a
  hwx4_3 : ∀ i : grid4.Coords, EltTy.bits .f32 = 32 ∨ (Rect.block (s := S256x32) S256x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S32.size a ≤ S32.size a
  hwx4_4 : ∀ i : grid4.Coords, EltTy.bits .f32 = 32 ∨ (Rect.block (s := S32) S32.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S512x32.size a ≤ S512x32.size a
  hwx4_5 : ∀ i : grid4.Coords, EltTy.bits .f32 = 32 ∨ (Rect.block (s := S512x32) S512x32.size (cc4_transform_5 i) (hinb4_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x2_S2x64_S1600000x64_1_0_0_1_n_n : DotDims S1600000x2 S2x64 S1600000x64 where
  lhsContracting := [1]
  rhsContracting := [0]
  lhsNonContracting := [0]
  rhsNonContracting := [1]
  lhsBatch := []
  rhsBatch := []
  wf := dot_S1600000x2_S2x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S1600000x2_S2x128_S1600000x128_1_0_0_1_n_n : DotDims S1600000x2 S2x128 S1600000x128 where
  lhsContracting := [1]
  rhsContracting := [0]
  lhsNonContracting := [0]
  rhsNonContracting := [1]
  lhsBatch := []
  rhsBatch := []
  wf := dot_S1600000x2_S2x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S1000x512_S1000x128_S512x128_0_0_1_1_n_n : DotDims S1000x512 S1000x128 S512x128 where
  lhsContracting := [0]
  rhsContracting := [0]
  lhsNonContracting := [1]
  rhsNonContracting := [1]
  lhsBatch := []
  rhsBatch := []
  wf := dot_S1000x512_S1000x128_S512x128_0_0_1_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x32_S512x32_1_0_0_1_n_n : DotDims S512x256 S256x32 S512x32 where
  lhsContracting := [1]
  rhsContracting := [0]
  lhsNonContracting := [0]
  rhsNonContracting := [1]
  lhsBatch := []
  rhsBatch := []
  wf := dot_S512x256_S256x32_S512x32_1_0_0_1_n_n_wf

abbrev win0_0 : Pipeline.Window sig grid0 :=
  Pipeline.Window.ofSpec (Memref.whole main_v21) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v59) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg14) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg15) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v60) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v60) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v62) S512x128.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v62) S512x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg16) S128x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg17) S256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg18) S256x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg19) S32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v63) S512x32.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x2 : Shape := ⟨2, ![1600000, 2]⟩
abbrev S100000 : Shape := ⟨1, ![100000]⟩
abbrev S2x64 : Shape := ⟨2, ![2, 64]⟩
abbrev S64 : Shape := ⟨1, ![64]⟩
abbrev S64x128 : Shape := ⟨2, ![64, 128]⟩
abbrev S128 : Shape := ⟨1, ![128]⟩
abbrev S2x128 : Shape := ⟨2, ![2, 128]⟩
abbrev S128x128 : Shape := ⟨2, ![128, 128]⟩
abbrev S128x256 : Shape := ⟨2, ![128, 256]⟩
abbrev S256 : Shape := ⟨1, ![256]⟩
abbrev S256x32 : Shape := ⟨2, ![256, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x128 : Shape := ⟨2, ![100000, 128]⟩
abbrev S1x128 : Shape := ⟨2, ![1, 128]⟩
abbrev S1600000x128 : Shape := ⟨2, ![1600000, 128]⟩
abbrev S512x128 : Shape := ⟨2, ![512, 128]⟩
abbrev S100000x1 : Shape := ⟨2, ![100000, 1]⟩
abbrev S512x256 : Shape := ⟨2, ![512, 256]⟩
abbrev S1x256 : Shape := ⟨2, ![1, 256]⟩
abbrev S512x32 : Shape := ⟨2, ![512, 32]⟩
abbrev S1x32 : Shape := ⟨2, ![1, 32]⟩

abbrev nBuf : Space → Nat
  | .hbm => 142
  | .vmem => 0
  | .smem => 0
  | _ => 0

abbrev hbmTy0_0 (i : Nat) : BufTy := match i % 128 with
  | 0 => ⟨S100000x64, .f32⟩
  | 1 => ⟨S2x1600000, .i32⟩
  | 2 => ⟨S1600000x2, .f32⟩
  | 3 => ⟨S100000, .i32⟩
  | 4 => ⟨S2x64, .f32⟩
  | 5 => ⟨S64, .f32⟩
  | 6 => ⟨S64x128, .f32⟩
  | 7 => ⟨S128, .f32⟩
  | 8 => ⟨S2x128, .f32⟩
  | 9 => ⟨S128, .f32⟩
  | 10 => ⟨S128x128, .f32⟩
  | 11 => ⟨S128, .f32⟩
  | 12 => ⟨S2x128, .f32⟩
  | 13 => ⟨S128, .f32⟩
  | 14 => ⟨S128x128, .f32⟩
  | 15 => ⟨S128, .f32⟩
  | 16 => ⟨S128x256, .f32⟩
  | 17 => ⟨S256, .f32⟩
  | 18 => ⟨S256x32, .f32⟩
  | 19 => ⟨S32, .f32⟩
  | 20 => ⟨S1x1600000, .i32⟩
  | 21 => ⟨S1600000, .i32⟩
  | 22 => ⟨S1x1600000, .i32⟩
  | 23 => ⟨S1600000, .i32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x64, .f32⟩
  | 33 => ⟨S1600000x64, .f32⟩
  | 34 => ⟨S1600000x64, .f32⟩
  | 35 => ⟨S1x64, .f32⟩
  | 36 => ⟨S1600000x64, .f32⟩
  | 37 => ⟨S1600000x64, .f32⟩
  | 38 => ⟨S_, .f32⟩
  | 39 => ⟨S1600000x64, .f32⟩
  | 40 => ⟨S1600000x64, .f32⟩
  | 41 => ⟨S_, .f32⟩
  | 42 => ⟨S100000x64, .f32⟩
  | 43 => ⟨S1600000x1, .i32⟩
  | 44 => ⟨S100000x64, .f32⟩
  | 45 => ⟨S100000x64, .f32⟩
  | 46 => ⟨S100000x128, .f32⟩
  | 47 => ⟨S1x128, .f32⟩
  | 48 => ⟨S100000x128, .f32⟩
  | 49 => ⟨S100000x128, .f32⟩
  | 50 => ⟨S_, .f32⟩
  | 51 => ⟨S100000x128, .f32⟩
  | 52 => ⟨S100000x128, .i1⟩
  | 53 => ⟨S_, .f32⟩
  | 54 => ⟨S100000x128, .f32⟩
  | 55 => ⟨S100000x128, .f32⟩
  | 56 => ⟨S100000x128, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x128, .f32⟩
  | 66 => ⟨S1600000x128, .f32⟩
  | 67 => ⟨S1600000x128, .f32⟩
  | 68 => ⟨S1x128, .f32⟩
  | 69 => ⟨S1600000x128, .f32⟩
  | 70 => ⟨S1600000x128, .f32⟩
  | 71 => ⟨S_, .f32⟩
  | 72 => ⟨S1600000x128, .f32⟩
  | 73 => ⟨S1600000x128, .f32⟩
  | 74 => ⟨S_, .f32⟩
  | 75 => ⟨S100000x128, .f32⟩
  | 76 => ⟨S1600000x1, .i32⟩
  | 77 => ⟨S100000x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S_, .f32⟩
  | 84 => ⟨S100000x128, .f32⟩
  | 85 => ⟨S100000x128, .i1⟩
  | 86 => ⟨S_, .f32⟩
  | 87 => ⟨S100000x128, .f32⟩
  | 88 => ⟨S100000x128, .f32⟩
  | 89 => ⟨S100000x128, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x128, .f32⟩
  | 99 => ⟨S1600000x128, .f32⟩
  | 100 => ⟨S1600000x128, .f32⟩
  | 101 => ⟨S1x128, .f32⟩
  | 102 => ⟨S1600000x128, .f32⟩
  | 103 => ⟨S1600000x128, .f32⟩
  | 104 => ⟨S_, .f32⟩
  | 105 => ⟨S1600000x128, .f32⟩
  | 106 => ⟨S1600000x128, .f32⟩
  | 107 => ⟨S_, .f32⟩
  | 108 => ⟨S100000x128, .f32⟩
  | 109 => ⟨S1600000x1, .i32⟩
  | 110 => ⟨S100000x128, .f32⟩
  | 111 => ⟨S100000x128, .f32⟩
  | 112 => ⟨S100000x128, .f32⟩
  | 113 => ⟨S1x128, .f32⟩
  | 114 => ⟨S100000x128, .f32⟩
  | 115 => ⟨S100000x128, .f32⟩
  | 116 => ⟨S_, .f32⟩
  | 117 => ⟨S100000x128, .f32⟩
  | 118 => ⟨S100000x128, .i1⟩
  | 119 => ⟨S_, .f32⟩
  | 120 => ⟨S100000x128, .f32⟩
  | 121 => ⟨S100000x128, .f32⟩
  | 122 => ⟨S100000x128, .f32⟩
  | 123 => ⟨S_, .f32⟩
  | 124 => ⟨S512x128, .f32⟩
  | 125 => ⟨S100000x1, .i32⟩
  | 126 => ⟨S512x128, .f32⟩
  | 127 => ⟨S512x256, .f32⟩
  | _ => ⟨S100000x64, .f32⟩

abbrev hbmTy0_1 (i : Nat) : BufTy := match i % 128 with
  | 0 => ⟨S1x256, .f32⟩
  | 1 => ⟨S512x256, .f32⟩
  | 2 => ⟨S512x256, .f32⟩
  | 3 => ⟨S_, .f32⟩
  | 4 => ⟨S512x256, .f32⟩
  | 5 => ⟨S512x256, .i1⟩
  | 6 => ⟨S_, .f32⟩
  | 7 => ⟨S512x256, .f32⟩
  | 8 => ⟨S512x256, .f32⟩
  | 9 => ⟨S512x256, .f32⟩
  | 10 => ⟨S512x32, .f32⟩
  | 11 => ⟨S1x32, .f32⟩
  | 12 => ⟨S512x32, .f32⟩
  | 13 => ⟨S512x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_call0_cst : Ref sig .tc := ⟨.hbm, 38, rfl⟩
abbrev main_call0_v0 : Ref sig .tc := ⟨.hbm, 39, rfl⟩
abbrev main_v16 : Ref sig .tc := ⟨.hbm, 40, rfl⟩
abbrev main_cst : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_1 : Ref sig .tc := ⟨.hbm, 50, rfl⟩
abbrev main_v25 : Ref sig .tc := ⟨.hbm, 51, rfl⟩
abbrev main_v26 : Ref sig .tc := ⟨.hbm, 52, rfl⟩
abbrev main_cst_2 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_c_3 : Ref sig .tc := ⟨.hbm, 57, rfl⟩
abbrev main_v30 : Ref sig .tc := ⟨.hbm, 58, rfl⟩
abbrev main_v31 : Ref sig .tc := ⟨.hbm, 59, rfl⟩
abbrev main_c_4 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_call2_cst : Ref sig .tc := ⟨.hbm, 71, rfl⟩
abbrev main_call2_v0 : Ref sig .tc := ⟨.hbm, 72, rfl⟩
abbrev main_v42 : Ref sig .tc := ⟨.hbm, 73, rfl⟩
abbrev main_cst_5 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_6 : Ref sig .tc := ⟨.hbm, 83, rfl⟩
abbrev main_v51 : Ref sig .tc := ⟨.hbm, 84, rfl⟩
abbrev main_v52 : Ref sig .tc := ⟨.hbm, 85, rfl⟩
abbrev main_cst_7 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_c_8 : Ref sig .tc := ⟨.hbm, 90, rfl⟩
abbrev main_v56 : Ref sig .tc := ⟨.hbm, 91, rfl⟩
abbrev main_v57 : Ref sig .tc := ⟨.hbm, 92, rfl⟩
abbrev main_c_9 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_call4_cst : Ref sig .tc := ⟨.hbm, 104, rfl⟩
abbrev main_call4_v0 : Ref sig .tc := ⟨.hbm, 105, rfl⟩
abbrev main_v68 : Ref sig .tc := ⟨.hbm, 106, rfl⟩
abbrev main_cst_10 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst_11 : Ref sig .tc := ⟨.hbm, 116, rfl⟩
abbrev main_v77 : Ref sig .tc := ⟨.hbm, 117, rfl⟩
abbrev main_v78 : Ref sig .tc := ⟨.hbm, 118, rfl⟩
abbrev main_cst_12 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_cst_13 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_14 : Ref sig .tc := ⟨.hbm, 131, rfl⟩
abbrev main_v89 : Ref sig .tc := ⟨.hbm, 132, rfl⟩
abbrev main_v90 : Ref sig .tc := ⟨.hbm, 133, rfl⟩
abbrev main_cst_15 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S_S512x256 : S_.BroadcastsInDim S512x256 (![] : Fin 0 → Fin S512x256.rank)
  bcast_S32_S1x32_1 : S32.BroadcastsInDim S1x32 (![1] : Fin 1 → Fin S1x32.rank)
  bcast_S1x32_S512x32_0_1 : S1x32.BroadcastsInDim S512x32 (![0, 1] : Fin 2 → Fin S512x32.rank)
  gather_S100000x64_S1600000x1_S1600000x64_1_0_n_n_0_1_164_wf : GatherDims.WF S100000x64 S1600000x1 S1600000x64 [1] [0] [] [0] [] 1 ![1, 64]
  dot_S1600000x2_S2x64_S1600000x64_1_0_0_1_n_n_wf : DotDims.WF S1600000x2 S2x64 S1600000x64 [1] [0] [0] [1] [] []
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  dot_S1600000x2_S2x128_S1600000x128_1_0_0_1_n_n_wf : DotDims.WF S1600000x2 S2x128 S1600000x128 [1] [0] [0] [1] [] []
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  dot_S512x128_S128x256_S512x256_1_0_0_1_n_n_wf : DotDims.WF S512x128 S128x256 S512x256 [1] [0] [0] [1] [] []
  dot_S512x256_S256x32_S512x32_1_0_0_1_n_n_wf : DotDims.WF S512x256 S256x32 S512x32 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x2_S2x64_S1600000x64_1_0_0_1_n_n : DotDims S1600000x2 S2x64 S1600000x64 where
  lhsContracting := [1]
  rhsContracting := [0]
  lhsNonContracting := [0]
  rhsNonContracting := [1]
  lhsBatch := []
  rhsBatch := []
  wf := dot_S1600000x2_S2x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S1600000x2_S2x128_S1600000x128_1_0_0_1_n_n : DotDims S1600000x2 S2x128 S1600000x128 where
  lhsContracting := [1]
  rhsContracting := [0]
  lhsNonContracting := [0]
  rhsNonContracting := [1]
  lhsBatch := []
  rhsBatch := []
  wf := dot_S1600000x2_S2x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x32_S512x32_1_0_0_1_n_n : DotDims S512x256 S256x32 S512x32 where
  lhsContracting := [1]
  rhsContracting := [0]
  lhsNonContracting := [0]
  rhsNonContracting := [1]
  lhsBatch := []
  rhsBatch := []
  wf := dot_S512x256_S256x32_S512x32_1_0_0_1_n_n_wf

class Facts : Prop extends Facts₀ where

variable [Facts]
-- ==== Proof.K.Reg0.lean ====
import proofs.«419434_j67937792688559_2_alg».proof.Proof.Gen.Kernel.Launch
import proofs.«419434_j67937792688559_2_alg».proof.Proof.Gen.Kernel.Skeleton
import proofs.«419434_j67937792688559_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

private theorem zeros0_2 : (![0, 0] : Fin 2 → Nat) = fun _ => 0 := by
  funext a; fin_cases a <;> rfl

private theorem zeros0_1 : (![0] : Fin 1 → Nat) = fun _ => 0 := by
  funext a; fin_cases a; rfl

abbrev tile0 : Rect S5000x128 := Rect.unit (s := S5000x128) ![0, 0] S5000x128.size inb_S5000x128_S5000x128_0_0

theorem covers0 (p : Vec F S5000x128 .f32) (y : S5000x128.Idx) :
    ∃ pc ∈ ([⟨tile0, p⟩] : List (View.Piece (Elt F) S5000x128 .f32)), y ∈ pc.1.set :=
  ⟨_, List.mem_singleton_self _, View.mem_set_unit_zero (S := S5000x128) zeros0_2 inb_S5000x128_S5000x128_0_0 y⟩

set_option maxHeartbeats 1000000 in
theorem sound_kernel0 (c : Dev nD) (E : Set ℕ) (i : grid0.Coords)
    (arg1 : Memref sig .tc .vmem S5000x64 .f32) (harg1 : arg1.IsWhole) (arg2 : Memref sig .tc .vmem S5000x64 .f32) (harg2 : arg2.IsWhole)
    (arg3 : Memref sig .tc .vmem S64x128 .f32) (harg3 : arg3.IsWhole) (arg4 : Memref sig .tc .vmem S128 .f32) (harg4 : arg4.IsWhole)
    (arg5 : Memref sig .tc .vmem S5000x128 .f32) (harg5 : arg5.IsWhole)
    (x0 x1 : Vec F S5000x64 .f32) (x2 : Vec F S64x128 .f32) (x3 : Vec F S128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k0_pay1 x0 x1 x2 x3)) -∗ K ⟨⟩))
      ⊢ wp frame (wpE (defs₀ (F := F)) Variants.none c none) E (cc0__update_kernel i arg1 harg1 arg2 harg2 arg3 harg3 arg4 harg4 arg5 harg5) K := by
  simp only [cc0__update_kernel_eq_skeleton]; unfold cc0__update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (covers0 _),
    View.canon_unit_zero (S := S5000x128) zeros0_2 inb_S5000x128_S5000x128_0_0]
  simp only [View.readAt_eq_ld, View.ld_unit_zero (S := S5000x64) zeros0_2,
    View.ld_unit_zero (S := S64x128) zeros0_2, View.ld_unit_zero (S := S128) zeros0_1]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay1 (iblk0 V c 0 t) (iblk0 V c 1 t) (iblk0 V c 2 t) (iblk0 V c 3 t)
  Φ _ := Pipeline.ΦA spec0 c
  q _ := fullShare
  owed _ := 0

theorem after0_out (c : Dev nD) (t : Fin cfg0.N) :
    (dat0 V c).after 4 t = k0_pay1 (iblk0 V c 0 t) (iblk0 V c 1 t) (iblk0 V c 2 t) (iblk0 V c 3 t) := rfl

theorem before0 (c : Dev nD) (t : Fin cfg0.N) : (∀ d, (dat0 V c).before 0 t d = iblk0 V c 0 t) ∧ (∀ d, (dat0 V c).before 1 t d = iblk0 V c 1 t)
    ∧ (∀ d, (dat0 V c).before 2 t d = iblk0 V c 2 t) ∧ (∀ d, (dat0 V c).before 3 t d = iblk0 V c 3 t) :=
  ⟨fun d => ((dat0 V c).before_in_eq_fetched 0 rfl (fun _ => rfl) (fun _ _ _ => rfl) (fun _ => rfl) t d).trans rfl,
   fun d => ((dat0 V c).before_in_eq_fetched 1 rfl (fun _ => rfl) (fun _ _ _ => rfl) (fun _ => rfl) t d).trans rfl,
   fun d => ((dat0 V c).before_in_eq_fetched 2 rfl (fun _ => rfl) (fun _ _ _ => rfl) (fun _ => rfl) t d).trans rfl,
   fun d => ((dat0 V c).before_in_eq_fetched 3 rfl (fun _ => rfl) (fun _ _ _ => rfl) (fun _ => rfl) t d).trans rfl⟩

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.castSucc ∗ (dat0 V c).owesAt () t.castSucc
    ∗ owns (c : Thread nD τ) (st0_0 t) fullShare (iblk0 V c 0 t)
    ∗ owns (c : Thread nD τ) (st0_1 t) fullShare (iblk0 V c 1 t)
    ∗ owns (c : Thread nD τ) (st0_2 t) fullShare (iblk0 V c 2 t)
    ∗ owns (c : Thread nD τ) (st0_3 t) fullShare (iblk0 V c 3 t)
    ∗ owns (c : Thread nD τ) (st0_4 t) fullShare (k0_pay1 (iblk0 V c 0 t) (iblk0 V c 1 t) (iblk0 V c 2 t) (iblk0 V c 3 t)))

theorem body_obligation0 (c : Dev nD) : BodyObligation (dat0 (F := F) V c) (defs₀ (F := F)) Variants.none () Set.univ := fun t => by
  rw [bigSep_W0, bigSep_W0]
  show bodyPre0 V c t ⊢ wp frame (wpE (defs₀ (F := F)) Variants.none c none) Set.univ (bodyAt0 t) (fun _ => bodyPost0 V c t)
  unfold bodyPre0 bodyPost0 bodyAt0
  obtain ⟨h0, h1, h2, h3⟩ := before0 V c t
  simp only [h0, h1, h2, h3]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _
    (iblk0 V c 0 t) (iblk0 V c 1 t) (iblk0 V c 2 t) (iblk0 V c 3 t) _)
  iframe H0 H1 H2 H3
  isplitl [H4]; · iexists _; iexact H4
  iintro ⟨H0, H1, H2, H3, H4⟩
  iframe HΦ Ho H0 H1 H2 H3 H4

end Cert.Kernel.Hand

end
-- ==== Proof.K.Reg1.lean ====
import proofs.«419434_j67937792688559_2_alg».proof.Proof.Gen.Kernel.Launch
import proofs.«419434_j67937792688559_2_alg».proof.Proof.Gen.Kernel.Skeleton
import proofs.«419434_j67937792688559_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

private theorem zeros1_2 : (![0, 0] : Fin 2 → Nat) = fun _ => 0 := by
  funext a; fin_cases a <;> rfl

private theorem zeros1_1 : (![0] : Fin 1 → Nat) = fun _ => 0 := by
  funext a; fin_cases a; rfl

abbrev tile1 : Rect S5000x128 := Rect.unit (s := S5000x128) ![0, 0] S5000x128.size inb_S5000x128_S5000x128_0_0

theorem covers1 (p : Vec F S5000x128 .f32) (y : S5000x128.Idx) :
    ∃ pc ∈ ([⟨tile1, p⟩] : List (View.Piece (Elt F) S5000x128 .f32)), y ∈ pc.1.set :=
  ⟨_, List.mem_singleton_self _, View.mem_set_unit_zero (S := S5000x128) zeros1_2 inb_S5000x128_S5000x128_0_0 y⟩

set_option maxHeartbeats 1000000 in
theorem sound_kernel1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128 .f32) (harg4 : arg4.IsWhole)
    (arg5 : Memref sig .tc .vmem S5000x128 .f32) (harg5 : arg5.IsWhole)
    (x0 x1 : Vec F S5000x128 .f32) (x2 : Vec F S128x128 .f32) (x3 : Vec F S128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k1_pay1 x0 x1 x2 x3)) -∗ K ⟨⟩))
      ⊢ wp frame (wpE (defs₀ (F := F)) Variants.none c none) E (cc1__update_kernel i arg1 harg1 arg2 harg2 arg3 harg3 arg4 harg4 arg5 harg5) K := by
  simp only [cc1__update_kernel_eq_skeleton]; unfold cc1__update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (covers1 _),
    View.canon_unit_zero (S := S5000x128) zeros1_2 inb_S5000x128_S5000x128_0_0]
  simp only [View.readAt_eq_ld, View.ld_unit_zero (S := S5000x128) zeros1_2,
    View.ld_unit_zero (S := S128x128) zeros1_2, View.ld_unit_zero (S := S128) zeros1_1]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay1 (iblk1 V c 0 t) (iblk1 V c 1 t) (iblk1 V c 2 t) (iblk1 V c 3 t)
  Φ _ := Pipeline.ΦA spec1 c
  q _ := fullShare
  owed _ := 0

theorem after1_out (c : Dev nD) (t : Fin cfg1.N) :
    (dat1 V c).after 4 t = k1_pay1 (iblk1 V c 0 t) (iblk1 V c 1 t) (iblk1 V c 2 t) (iblk1 V c 3 t) := rfl

theorem before1 (c : Dev nD) (t : Fin cfg1.N) : (∀ d, (dat1 V c).before 0 t d = iblk1 V c 0 t) ∧ (∀ d, (dat1 V c).before 1 t d = iblk1 V c 1 t)
    ∧ (∀ d, (dat1 V c).before 2 t d = iblk1 V c 2 t) ∧ (∀ d, (dat1 V c).before 3 t d = iblk1 V c 3 t) :=
  ⟨fun d => ((dat1 V c).before_in_eq_fetched 0 rfl (fun _ => rfl) (fun _ _ _ => rfl) (fun _ => rfl) t d).trans rfl,
   fun d => ((dat1 V c).before_in_eq_fetched 1 rfl (fun _ => rfl) (fun _ _ _ => rfl) (fun _ => rfl) t d).trans rfl,
   fun d => ((dat1 V c).before_in_eq_fetched 2 rfl (fun _ => rfl) (fun _ _ _ => rfl) (fun _ => rfl) t d).trans rfl,
   fun d => ((dat1 V c).before_in_eq_fetched 3 rfl (fun _ => rfl) (fun _ _ _ => rfl) (fun _ => rfl) t d).trans rfl⟩

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.castSucc ∗ (dat1 V c).owesAt () t.castSucc
    ∗ owns (c : Thread nD τ) (st1_0 t) fullShare (iblk1 V c 0 t)
    ∗ owns (c : Thread nD τ) (st1_1 t) fullShare (iblk1 V c 1 t)
    ∗ owns (c : Thread nD τ) (st1_2 t) fullShare (iblk1 V c 2 t)
    ∗ owns (c : Thread nD τ) (st1_3 t) fullShare (iblk1 V c 3 t)
    ∗ owns (c : Thread nD τ) (st1_4 t) fullShare (k1_pay1 (iblk1 V c 0 t) (iblk1 V c 1 t) (iblk1 V c 2 t) (iblk1 V c 3 t)))

theorem body_obligation1 (c : Dev nD) : BodyObligation (dat1 (F := F) V c) (defs₀ (F := F)) Variants.none () Set.univ := fun t => by
  rw [bigSep_W1, bigSep_W1]
  show bodyPre1 V c t ⊢ wp frame (wpE (defs₀ (F := F)) Variants.none c none) Set.univ (bodyAt1 t) (fun _ => bodyPost1 V c t)
  unfold bodyPre1 bodyPost1 bodyAt1
  obtain ⟨h0, h1, h2, h3⟩ := before1 V c t
  simp only [h0, h1, h2, h3]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _
    (iblk1 V c 0 t) (iblk1 V c 1 t) (iblk1 V c 2 t) (iblk1 V c 3 t) _)
  iframe H0 H1 H2 H3
  isplitl [H4]; · iexists _; iexact H4
  iintro ⟨H0, H1, H2, H3, H4⟩
  iframe HΦ Ho H0 H1 H2 H3 H4

end Cert.Kernel.Hand

end
-- ==== Proof.K.Reg2.lean ====
import proofs.«419434_j67937792688559_2_alg».proof.Proof.Gen.Kernel.Launch
import proofs.«419434_j67937792688559_2_alg».proof.Proof.Gen.Kernel.Skeleton
import proofs.«419434_j67937792688559_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

private theorem zeros2_2 : (![0, 0] : Fin 2 → Nat) = fun _ => 0 := by
  funext a; fin_cases a <;> rfl

private theorem zeros2_1 : (![0] : Fin 1 → Nat) = fun _ => 0 := by
  funext a; fin_cases a; rfl

abbrev tile2 : Rect S5000x128 := Rect.unit (s := S5000x128) ![0, 0] S5000x128.size inb_S5000x128_S5000x128_0_0

theorem covers2 (p : Vec F S5000x128 .f32) (y : S5000x128.Idx) :
    ∃ pc ∈ ([⟨tile2, p⟩] : List (View.Piece (Elt F) S5000x128 .f32)), y ∈ pc.1.set :=
  ⟨_, List.mem_singleton_self _, View.mem_set_unit_zero (S := S5000x128) zeros2_2 inb_S5000x128_S5000x128_0_0 y⟩

set_option maxHeartbeats 1000000 in
theorem sound_kernel2 (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128 .f32) (harg4 : arg4.IsWhole)
    (arg5 : Memref sig .tc .vmem S5000x128 .f32) (harg5 : arg5.IsWhole)
    (x0 x1 : Vec F S5000x128 .f32) (x2 : Vec F S128x128 .f32) (x3 : Vec F S128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k2_pay1 x0 x1 x2 x3)) -∗ K ⟨⟩))
      ⊢ wp frame (wpE (defs₀ (F := F)) Variants.none c none) E (cc2__update_kernel i arg1 harg1 arg2 harg2 arg3 harg3 arg4 harg4 arg5 harg5) K := by
  simp only [cc2__update_kernel_eq_skeleton]; unfold cc2__update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (covers2 _),
    View.canon_unit_zero (S := S5000x128) zeros2_2 inb_S5000x128_S5000x128_0_0]
  simp only [View.readAt_eq_ld, View.ld_unit_zero (S := S5000x128) zeros2_2,
    View.ld_unit_zero (S := S128x128) zeros2_2, View.ld_unit_zero (S := S128) zeros2_1]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay1 (iblk2 V c 0 t) (iblk2 V c 1 t) (iblk2 V c 2 t) (iblk2 V c 3 t)
  Φ _ := Pipeline.ΦA spec2 c
  q _ := fullShare
  owed _ := 0

theorem after2_out (c : Dev nD) (t : Fin cfg2.N) :
    (dat2 V c).after 4 t = k2_pay1 (iblk2 V c 0 t) (iblk2 V c 1 t) (iblk2 V c 2 t) (iblk2 V c 3 t) := rfl

theorem before2 (c : Dev nD) (t : Fin cfg2.N) : (∀ d, (dat2 V c).before 0 t d = iblk2 V c 0 t) ∧ (∀ d, (dat2 V c).before 1 t d = iblk2 V c 1 t)
    ∧ (∀ d, (dat2 V c).before 2 t d = iblk2 V c 2 t) ∧ (∀ d, (dat2 V c).before 3 t d = iblk2 V c 3 t) :=
  ⟨fun d => ((dat2 V c).before_in_eq_fetched 0 rfl (fun _ => rfl) (fun _ _ _ => rfl) (fun _ => rfl) t d).trans rfl,
   fun d => ((dat2 V c).before_in_eq_fetched 1 rfl (fun _ => rfl) (fun _ _ _ => rfl) (fun _ => rfl) t d).trans rfl,
   fun d => ((dat2 V c).before_in_eq_fetched 2 rfl (fun _ => rfl) (fun _ _ _ => rfl) (fun _ => rfl) t d).trans rfl,
   fun d => ((dat2 V c).before_in_eq_fetched 3 rfl (fun _ => rfl) (fun _ _ _ => rfl) (fun _ => rfl) t d).trans rfl⟩

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.castSucc ∗ (dat2 V c).owesAt () t.castSucc
    ∗ owns (c : Thread nD τ) (st2_0 t) fullShare (iblk2 V c 0 t)
    ∗ owns (c : Thread nD τ) (st2_1 t) fullShare (iblk2 V c 1 t)
    ∗ owns (c : Thread nD τ) (st2_2 t) fullShare (iblk2 V c 2 t)
    ∗ owns (c : Thread nD τ) (st2_3 t) fullShare (iblk2 V c 3 t)
    ∗ owns (c : Thread nD τ) (st2_4 t) fullShare (k2_pay1 (iblk2 V c 0 t) (iblk2 V c 1 t) (iblk2 V c 2 t) (iblk2 V c 3 t)))

theorem body_obligation2 (c : Dev nD) : BodyObligation (dat2 (F := F) V c) (defs₀ (F := F)) Variants.none () Set.univ := fun t => by
  rw [bigSep_W2, bigSep_W2]
  show bodyPre2 V c t ⊢ wp frame (wpE (defs₀ (F := F)) Variants.none c none) Set.univ (bodyAt2 t) (fun _ => bodyPost2 V c t)
  unfold bodyPre2 bodyPost2 bodyAt2
  obtain ⟨h0, h1, h2, h3⟩ := before2 V c t
  simp only [h0, h1, h2, h3]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _
    (iblk2 V c 0 t) (iblk2 V c 1 t) (iblk2 V c 2 t) (iblk2 V c 3 t) _)
  iframe H0 H1 H2 H3
  isplitl [H4]; · iexists _; iexact H4
  iintro ⟨H0, H1, H2, H3, H4⟩
  iframe HΦ Ho H0 H1 H2 H3 H4

end Cert.Kernel.Hand

end
-- ==== Proof.K.Reg3.lean ====
import proofs.«419434_j67937792688559_2_alg».proof.Proof.Gen.Kernel.Launch
import proofs.«419434_j67937792688559_2_alg».proof.Proof.Gen.Kernel.Skeleton
import proofs.«419434_j67937792688559_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def acc3 (c : Dev nD) : ℕ → Vec F S512x128 .f32
  | 0 => k3_pay1
  | n + 1 => if h : n < cfg3.N then k3_pay2 (iblk3 V c 0 ⟨n, h⟩) (iblk3 V c 1 ⟨n, h⟩) (acc3 c n) else acc3 c n

theorem acc3_succ (c : Dev nD) (t : Fin cfg3.N) :
    acc3 V c (t.val + 1) = k3_pay2 (iblk3 V c 0 t) (iblk3 V c 1 t) (acc3 V c t.val) :=
  dif_pos t.isLt

-- Reading the scratch as the reset value at the first point lets one invariant serve every point.
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c cfg3.N
  Φ t := iprop((∃ r, prngReg c r)
    ∗ Pipeline.scopedRestBut spec3 c [cc3_scratch0]
    ∗ (∃ X : Vec F S512x128 .f32, ⌜(if t.val = 0 then k3_pay1 else X) = acc3 V c t.val⌝ ∗ owns c.tc (Memref.whole cc3_scratch0) fullShare X))
  q _ := fullShare
  owed _ := 0

theorem after3_out (c : Dev nD) (t : Fin cfg3.N) : (dat3 V c).after 2 t = acc3 V c cfg3.N := rfl

theorem before3_0 (c : Dev nD) (t : Fin cfg3.N) (d) : (dat3 V c).before 0 t d = iblk3 V c 0 t :=
  ((dat3 V c).before_fetched 0 t (fetch3_0 t) d).trans rfl

theorem before3_1 (c : Dev nD) (t : Fin cfg3.N) (d) : (dat3 V c).before 1 t d = iblk3 V c 1 t :=
  ((dat3 V c).before_fetched 1 t (fetch3_1 t) d).trans rfl

abbrev cond3_0 (i : grid3.Coords) : Prop :=
  (Scalar.cmpi .ne (Scalar.extui (Scalar.cmpi .eq (BitVec.ofNat 32 (i 0).val) 0#32)) 0#32) = 1#1

theorem pts3 : ∀ t : Fin cfg3.N, (cond3_0 (grid3.coords t) ↔ t.val = 0) ∧ (k3_cond2 (grid3.coords t) = 1#1 ↔ t.val = 99)
    ∧ (cfg3.idle 2 (cfg3.grid.coords t) = true ↔ t.val ≠ 99) ∧ ((cfg3.win 2).flush t = true ↔ t.val = 99) := by
  decide +kernel

theorem hz3 : (![0, 0] : Fin 2 → Nat) = fun _ => 0 := by decide

theorem store_whole3 {κ : Kind} {sp : Space} {d : Fin 2 → ℕ} {e : EltTy} (v : View sig κ sp ⟨2, d⟩ e) (f : v.ty.Contents (Elt F))
    {off : Fin 2 → ℕ} (hz : off = fun _ => 0) (inb) (w : Vec F ⟨2, d⟩ e) (L : List (View.Piece (Elt F) ⟨2, d⟩ e)) :
    v.read (Elt F) (v.writes (Elt F) f ((⟨Rect.unit (s := ⟨2, d⟩) off d inb, w⟩ : View.Piece (Elt F) ⟨2, d⟩ e) :: L)) = w := by
  subst hz; funext y
  have h := View.read_writes_cons_emb v f (Rect.whole _) w L y
  rw [Rect.emb_whole_apply] at h; exact h

set_option maxHeartbeats 400000 in
theorem run3 (c : Dev nD) {i : grid3.Coords} {arg1 : Memref sig .tc .vmem S1000x128 .f32} {harg1 : arg1.IsWhole}
    {arg2 : Memref sig .tc .vmem S1000x1 .i32} {harg2 : arg2.IsWhole} {arg3 arg4 : Memref sig .tc .vmem S512x128 .f32} {harg3 : arg3.IsWhole}
    {harg4 : arg4.IsWhole} {p0 p1 : Prop} [Decidable p0] [Decidable p1] (h0 : cond3_0 i ↔ p0) (h1 : k3_cond2 i = 1#1 ↔ p1)
    {x0 : Vec F S1000x128 .f32} {x1 : Vec F S1000x1 .i32} {xo xs Y : Vec F S512x128 .f32}
    (hY : k3_pay2 x0 x1 (if p0 then k3_pay1 else xs) = Y) {E : Set ℕ} {K : PUnit → sProp 𝕄} :
    iprop(owns c.tc arg1 fullShare x0 ∗ owns c.tc arg2 fullShare x1 ∗ owns c.tc arg3 fullShare xo ∗ owns c.tc arg4 fullShare xs
        ∗ (iprop(owns c.tc arg1 fullShare x0 ∗ owns c.tc arg2 fullShare x1 ∗ owns c.tc arg3 fullShare (if p1 then Y else xo)
            ∗ owns c.tc arg4 fullShare Y) -∗ K ⟨⟩))
      ⊢ wp frame (wpE (defs₀ (F := F)) Variants.none c none) E (cc3__pool_kernel i arg1 harg1 arg2 harg2 arg3 harg3 arg4 harg4) K := by
  subst hY
  simp only [cc3__pool_kernel_eq_skeleton]; unfold cc3__pool_kernel_skel owns
  by_cases hp0 : p0 <;> by_cases hp1 : p1 <;> simp only [hp0, hp1, if_true, if_false]
  all_goals
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := first | exact h0.mpr hp0 | exact mt h0.mp hp0 | exact h1.mpr hp1 | exact mt h1.mp hp1)
    sl_step
    iapply Hk
    isplitl [H0]; rotate_left; isplitl [H1]; rotate_left; isplitl [H2]
    all_goals
      iexists _; iframe; ipureintro; try sl_unfold_run_names
      simp only [store_whole3 _ _ hz3, View.readCov_cons_toLoadRect, View.readAt_eq_ld, Memref.IsWhole.read_unread, View.ld_unit_zero (S := ⟨2, _⟩) hz3]

theorem body_obligation3 (c : Dev nD) : BodyObligation (dat3 (F := F) V c) (defs₀ (F := F)) Variants.none () Set.univ := fun t => by
  obtain ⟨h0, h99, hi, hf⟩ := pts3 t
  have h2 : ∀ d, owns c.tc (st3_2 t) fullShare (if t.val = 99 then acc3 V c (t.val + 1) else (dat3 V c).before 2 t d) ⊢ (dat3 V c).leavesExact 2 t := fun d => by
    by_cases h : t.val = 99
    · unfold Dat.leavesExact; rw [if_pos h, h, Bool.eq_false_iff.mpr fun e => hi.mp e h]; exact .rfl
    · rw [if_neg h, Dat.leavesExact_idle _ 2 t (hi.mpr h) (Bool.eq_false_iff.mpr fun e => h (hf.mp e))]
      iintro H; iexists d; iexact H
  rw [bigSep_W3, bigSep_W3]
  simp only [before3_0, before3_1]
  simp only [dat3]
  show _ ⊢ wp _ _ _ (bodyAt3 t) _
  iintro ⟨⟨Hr, Hrest, ⟨%X, %hX, HS⟩⟩, Ho, ⟨%d0, H0⟩, ⟨%d1, H1⟩, ⟨%d2, H2⟩⟩
  iapply run3 c h0 h99 ((congrArg _ hX).trans (acc3_succ V c t).symm)
  iframe H0 H1 H2 HS
  iintro ⟨H0, H1, H2, HS⟩
  iframe Hr Hrest H0 H1
  isplitl [HS]
  · iexists _; iframe HS; ipureintro; exact if_neg (Nat.succ_ne_zero _)
  isplitl [Ho]; · iexact Ho
  iapply h2 d2; iexact H2

theorem hin3 (c : Dev nD) :
    (iprop((∃ r, prngReg c r) ∗ Pipeline.scopedRest spec3 c) : sProp 𝕄) ⊢ (dat3 V c).Φ 0 := by
  simp only [dat3, scopedRest3_split, owns_whole]
  iintro ⟨Hr, ⟨%f, Hs⟩, Hrest⟩
  iframe Hr Hrest
  iexists f; iframe Hs; ipureintro; exact if_pos rfl

theorem hout3 (c : Dev nD) :
    (dat3 V c).Φ (Fin.last cfg3.N) ⊢ (iprop((∃ r, prngReg c r) ∗ Pipeline.scopedRest spec3 c) : sProp 𝕄) := by
  simp only [dat3, scopedRest3_split, owns_whole]
  iintro ⟨Hr, Hrest, ⟨%X, -, Hs⟩⟩
  iframe Hr Hrest
  iexists X; iexact Hs

end Cert.Kernel.Hand

end
-- ==== Proof.K.Reg4.lean ====
import proofs.«419434_j67937792688559_2_alg».proof.Proof.Gen.Kernel.Launch
import proofs.«419434_j67937792688559_2_alg».proof.Proof.Gen.Kernel.Skeleton
import proofs.«419434_j67937792688559_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

private theorem zeros2 : (![0, 0] : Fin 2 → Nat) = fun _ => 0 := funext fun a => by fin_cases a <;> rfl

private theorem zeros1 : (![0] : Fin 1 → Nat) = fun _ => 0 := funext fun a => by fin_cases a; rfl

set_option maxHeartbeats 1000000 in
private theorem sound_kernel4 (c : Dev nD) (E : Set ℕ) (i : grid4.Coords)
    (arg1 : Memref sig .tc .vmem S512x128 .f32) (harg1 : arg1.IsWhole)
    (arg2 : Memref sig .tc .vmem S128x256 .f32) (harg2 : arg2.IsWhole)
    (arg3 : Memref sig .tc .vmem S256 .f32) (harg3 : arg3.IsWhole)
    (arg4 : Memref sig .tc .vmem S256x32 .f32) (harg4 : arg4.IsWhole)
    (arg5 : Memref sig .tc .vmem S32 .f32) (harg5 : arg5.IsWhole)
    (arg6 : Memref sig .tc .vmem S512x32 .f32) (harg6 : arg6.IsWhole)
    (x0 : Vec F S512x128 .f32) (x1 : Vec F S128x256 .f32) (x2 : Vec F S256 .f32) (x3 : Vec F S256x32 .f32) (x4 : Vec F S32 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (k4_pay1 x0 x1 x2 x3 x4)) -∗ K ⟨⟩))
      ⊢ wp frame (wpE (defs₀ (F := F)) Variants.none c none) E
          (cc4__head_kernel i arg1 harg1 arg2 harg2 arg3 harg3 arg4 harg4 arg5 harg5 arg6 harg6) K := by
  simp only [cc4__head_kernel_eq_skeleton]; unfold cc4__head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_singleton_self _, View.mem_set_unit_zero zeros2 inb_S512x32_S512x32_0_0 y⟩),
    View.canon_unit_zero zeros2]
  simp only [View.readAt_eq_ld, View.ld_unit_zero (S := S512x128) zeros2, View.ld_unit_zero (S := S128x256) zeros2,
    View.ld_unit_zero (S := S256) zeros1, View.ld_unit_zero (S := S256x32) zeros2, View.ld_unit_zero (S := S32) zeros1]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => k4_pay1 (iblk4 V c 0 t) (iblk4 V c 1 t) (iblk4 V c 2 t) (iblk4 V c 3 t) (iblk4 V c 4 t)
  Φ _ := Pipeline.ΦA spec4 c
  q _ := fullShare
  owed _ := 0

theorem after4_out (c : Dev nD) (t : Fin cfg4.N) :
    (dat4 V c).after 5 t = k4_pay1 (iblk4 V c 0 t) (iblk4 V c 1 t) (iblk4 V c 2 t) (iblk4 V c 3 t) (iblk4 V c 4 t) := rfl

private theorem before4 (c : Dev nD) (t : Fin cfg4.N) : (∀ d, (dat4 V c).before 0 t d = iblk4 V c 0 t) ∧ (∀ d, (dat4 V c).before 1 t d = iblk4 V c 1 t)
    ∧ (∀ d, (dat4 V c).before 2 t d = iblk4 V c 2 t) ∧ (∀ d, (dat4 V c).before 3 t d = iblk4 V c 3 t) ∧ (∀ d, (dat4 V c).before 4 t d = iblk4 V c 4 t) :=
  ⟨fun d => ((dat4 V c).before_fetched 0 t (fetch4_0 t) d).trans rfl, fun d => ((dat4 V c).before_fetched 1 t (fetch4_1 t) d).trans rfl,
   fun d => ((dat4 V c).before_fetched 2 t (fetch4_2 t) d).trans rfl, fun d => ((dat4 V c).before_fetched 3 t (fetch4_3 t) d).trans rfl,
   fun d => ((dat4 V c).before_fetched 4 t (fetch4_4 t) d).trans rfl⟩

private def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

private def bodyPost4 (c : Dev nD) (t : Fin cfg4.N) : sProp 𝕄 :=
  iprop((dat4 V c).Φ t.castSucc ∗ (dat4 V c).owesAt () t.castSucc
    ∗ owns (c : Thread nD τ) (st4_0 t) fullShare (iblk4 V c 0 t)
    ∗ owns (c : Thread nD τ) (st4_1 t) fullShare (iblk4 V c 1 t)
    ∗ owns (c : Thread nD τ) (st4_2 t) fullShare (iblk4 V c 2 t)
    ∗ owns (c : Thread nD τ) (st4_3 t) fullShare (iblk4 V c 3 t)
    ∗ owns (c : Thread nD τ) (st4_4 t) fullShare (iblk4 V c 4 t)
    ∗ owns (c : Thread nD τ) (st4_5 t) fullShare (k4_pay1 (iblk4 V c 0 t) (iblk4 V c 1 t) (iblk4 V c 2 t) (iblk4 V c 3 t) (iblk4 V c 4 t)))

theorem body_obligation4 (c : Dev nD) : BodyObligation (dat4 (F := F) V c) (defs₀ (F := F)) Variants.none () Set.univ := fun t => by
  rw [bigSep_W4, bigSep_W4]
  show bodyPre4 V c t ⊢ wp frame (wpE (defs₀ (F := F)) Variants.none c none) Set.univ (bodyAt4 t) (fun _ => bodyPost4 V c t)
  unfold bodyPre4 bodyPost4 bodyAt4
  obtain ⟨h0, h1, h2, h3, h4⟩ := before4 V c t
  simp only [h0, h1, h2, h3, h4]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _
    (iblk4 V c 0 t) (iblk4 V c 1 t) (iblk4 V c 2 t) (iblk4 V c 3 t) (iblk4 V c 4 t) _)
  iframe H0 H1 H2 H3 H4
  isplitl [H5]; · iexists _; iexact H5
  iintro ⟨H0, H1, H2, H3, H4, H5⟩
  iframe HΦ Ho H0 H1 H2 H3 H4 H5

end Cert.Kernel.Hand

end
-- ==== Proof.K.Run.lean ====
import proofs.«419434_j67937792688559_2_alg».proof.Proof.K.Reg0
import proofs.«419434_j67937792688559_2_alg».proof.Proof.K.Reg1
import proofs.«419434_j67937792688559_2_alg».proof.Proof.K.Reg2
import proofs.«419434_j67937792688559_2_alg».proof.Proof.K.Reg3
import proofs.«419434_j67937792688559_2_alg».proof.Proof.K.Reg4
import proofs.«419434_j67937792688559_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev En0 : (c : Dev nD) → (b : Ref sig .tc) → Buf (Elt F) ((c : Thread nD τ).loc b) := fun c b => V3 m c b
def o4 (c : Dev nD) : Buf (Elt F) ((c : Thread nD τ).loc main_v22) := (dat0 (En0 m) c).arrAt 4 cfg0.N
def outs1 : Outs (F := F) := fun _ r c => if h : r = main_v22 then h ▸ o4 m c else V3 m c r
abbrev En1 : (c : Dev nD) → (b : Ref sig .tc) → Buf (Elt F) ((c : Thread nD τ).loc b) := fun c b => V7 m (outs1 m) c b
def o8 (c : Dev nD) : Buf (Elt F) ((c : Thread nD τ).loc main_v41) := (dat1 (En1 m) c).arrAt 4 cfg1.N
def outs2 : Outs (F := F) := fun j r c => if j = 8 then (if h : r = main_v41 then h ▸ o8 m c else V3 m c r) else outs1 m j r c
abbrev En2 : (c : Dev nD) → (b : Ref sig .tc) → Buf (Elt F) ((c : Thread nD τ).loc b) := fun c b => V11 m (outs2 m) c b
def o12 (c : Dev nD) : Buf (Elt F) ((c : Thread nD τ).loc main_v60) := (dat2 (En2 m) c).arrAt 4 cfg2.N
def outs3 : Outs (F := F) := fun j r c => if j = 12 then (if h : r = main_v60 then h ▸ o12 m c else V3 m c r) else outs2 m j r c
abbrev En3 : (c : Dev nD) → (b : Ref sig .tc) → Buf (Elt F) ((c : Thread nD τ).loc b) := fun c b => V13 m (outs3 m) c b
def o14 (c : Dev nD) : Buf (Elt F) ((c : Thread nD τ).loc main_v62) := (dat3 (En3 m) c).arrAt 2 cfg3.N
def outs4 : Outs (F := F) := fun j r c => if j = 14 then (if h : r = main_v62 then h ▸ o14 m c else V3 m c r) else outs3 m j r c
abbrev En4 : (c : Dev nD) → (b : Ref sig .tc) → Buf (Elt F) ((c : Thread nD τ).loc b) := fun c b => V14 m (outs4 m) c b
def o15 (c : Dev nD) : Buf (Elt F) ((c : Thread nD τ).loc main_v63) := (dat4 (En4 m) c).arrAt 5 cfg4.N
def outs : Outs (F := F) := fun j r c => if j = 15 then (if h : r = main_v63 then h ▸ o15 m c else V3 m c r) else outs4 m j r c

theorem outs_4 (c : Dev nD) : outs m 4 main_v22 c = o4 m c := by
  simp only [outs, outs4, outs3, outs2, outs1, dif_pos, Nat.reduceEqDiff, if_false]
theorem outs_8 (c : Dev nD) : outs m 8 main_v41 c = o8 m c := by
  simp only [outs, outs4, outs3, outs2, dif_pos, Nat.reduceEqDiff, if_false, if_true]
theorem outs_12 (c : Dev nD) : outs m 12 main_v60 c = o12 m c := by
  simp only [outs, outs4, outs3, dif_pos, Nat.reduceEqDiff, if_false, if_true]
theorem outs_14 (c : Dev nD) : outs m 14 main_v62 c = o14 m c := by
  simp only [outs, outs4, dif_pos, Nat.reduceEqDiff, if_false, if_true]
theorem outs_15 (c : Dev nD) : outs m 15 main_v63 c = o15 m c := by
  simp only [outs, dif_pos, if_true]

theorem V7_outs (c : Dev nD) : V7 m (outs m) c = V7 m (outs1 m) c := by
  simp only [V7, V6, V5, V4, outs, outs4, outs3, outs2, outs1, dif_pos, Nat.reduceEqDiff, if_false, if_true]
theorem V11_outs (c : Dev nD) : V11 m (outs m) c = V11 m (outs2 m) c := by
  simp only [V11, V10, V9, V8, V7, V6, V5, V4, outs, outs4, outs3, outs2, outs1, dif_pos, Nat.reduceEqDiff, if_false, if_true]
theorem V13_outs (c : Dev nD) : V13 m (outs m) c = V13 m (outs3 m) c := by
  simp only [V13, V12, V11, V10, V9, V8, V7, V6, V5, V4, outs, outs4, outs3, outs2, outs1, dif_pos, Nat.reduceEqDiff, if_false, if_true]
theorem V14_outs (c : Dev nD) : V14 m (outs m) c = V14 m (outs4 m) c := by
  simp only [V14, V13, V12, V11, V10, V9, V8, V7, V6, V5, V4, outs, outs4, outs3, outs2, outs1, dif_pos, Nat.reduceEqDiff, if_false, if_true]

def pdats : (p : Fin 5) → (c : Dev nD) → Dat τ (Elt F) Unit ℕ (UR sig nD τ) ℕ (cfgs p) c
  | ⟨0, _⟩ => fun c => dat0 (En0 m) c
  | ⟨1, _⟩ => fun c => dat1 (En1 m) c
  | ⟨2, _⟩ => fun c => dat2 (En2 m) c
  | ⟨3, _⟩ => fun c => dat3 (En3 m) c
  | ⟨4, _⟩ => fun c => dat4 (En4 m) c

abbrev 𝒱₀ : Variants := Variants.none
abbrev L : GSem nD τ sig → Finset Unit := fun _ => ∅
abbrev lv : GSem nD τ sig → Unit → ℕ := fun _ _ => 0
abbrev Rst (c : Dev nD) : sProp 𝕄 := iprop((∃ r, prngReg c r) ∗ ∃ W, owes (c : Thread nD τ) (0 : CellTallies nD τ sig Unit) W)

theorem ΦA_in {gr W : Nat} (spec : Fin W → Pipeline.WinSpec sig gr) (c : Dev nD) :
    (iprop((∃ r, prngReg c r) ∗ Pipeline.scopedRest (Ix := Unit) (Name := ℕ) (U := UR sig nD τ) (Lvl := ℕ) (Val := Elt F) spec c) : sProp 𝕄) ⊢ Pipeline.ΦA spec c := by
  unfold Pipeline.ΦA
  iintro ⟨Hp, Hr⟩
  iframe Hp Hr
theorem ΦA_out {gr W : Nat} (spec : Fin W → Pipeline.WinSpec sig gr) (c : Dev nD) :
    Pipeline.ΦA spec c ⊢ (iprop((∃ r, prngReg c r) ∗ Pipeline.scopedRest (Ix := Unit) (Name := ℕ) (U := UR sig nD τ) (Lvl := ℕ) (Val := Elt F) spec c) : sProp 𝕄) := by
  unfold Pipeline.ΦA
  iintro ⟨Hr, Hp⟩
  iframe Hp Hr

set_option backward.isDefEq.respectTransparency.types false in
/-- One region as a step of @main from the contents Vi to the contents Vo, which differ at the region's output array only. -/
def regSeg (p : Fin 5) (lf : Pipeline.LaunchFacts (nD := nD) (τ := τ) cfgs p)
    (Vi Vo : (c : Dev nD) → Valuation τ sig (Elt F)) (o : Fin (cfgs p).W)
    (hio : ∀ w, w ≠ o → ((cfgs p).win w).isOut = false)
    (hA : ∀ c w, (pdats m p c).A w = Vi c (Pipeline.arrRef (cfgs p).spec w))
    (hq : ∀ c w, (pdats m p c).q w = fullShare)
    (howed : ∀ c t, (pdats m p c).owed t = 0)
    (hrec : ∀ c, (pdats m p c).recorded 0 = Set.univ)
    (hin : ∀ c, (iprop((∃ r, prngReg c r) ∗ Pipeline.scopedRest (Ix := Unit) (Name := ℕ) (U := UR sig nD τ) (Lvl := ℕ) (Val := Elt F) (cfgs p).spec c) : sProp 𝕄) ⊢ (pdats m p c).Φ 0)
    (hout : ∀ c, (pdats m p c).Φ (Fin.last (cfgs p).N) ⊢ (iprop((∃ r, prngReg c r) ∗ Pipeline.scopedRest (Ix := Unit) (Name := ℕ) (U := UR sig nD τ) (Lvl := ℕ) (Val := Elt F) (cfgs p).spec c) : sProp 𝕄))
    (hbody : ∀ c, BodyObligation (pdats m p c) (defs₀ (F := F)) Variants.none () Set.univ)
    (hupd : ∀ c b, b ≠ Pipeline.arrRef (cfgs p).spec o → Vo c b = Vi c b)
    (hfin : ∀ c, Vo c (Pipeline.arrRef (cfgs p).spec o) = (pdats m p c).arrAt o (cfgs p).N) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vi c) ∗ Rst c)
  post c := iprop(StableHlo.held (c : Thread nD τ) (Pipeline.ucRefs τ sig) (Vo c) ∗ Rst c)
  X c := iprop(∃ r, prngReg c r)
  Y c := iprop(∃ r, prngReg c r)
  Z c := Pipeline.unscopedRest (Ix := Unit) (Name := ℕ) (U := UR sig nD τ) (Lvl := ℕ) (cfgs p).spec c (fun b : Ref sig .tc => Vi c b)
  hentry c := by
    rw [Pipeline.ownSems0_none]
    have hsplit := Pipeline.arrays_of_unscopedBufs (p := p) (pcfgs (F := F)) adm (pdats m) lf.win lf.arr_whole c
      ((pdats m p c).share_full fun w => hq c w) (fun b : Ref sig .tc => Vi c b) fun w => hA c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun _ _ => Or.inl (by rw [hrec c]; exact Set.mem_univ _)
      rw [howed c 0]; iexact HO
    isplitl [Hp]; · iexact Hp
    iexact Hrest
  hin c := by
    iintro ⟨Hp, -, Hr⟩
    iapply (hin c)
    iframe Hp Hr
  hout c := by
    rw [Pipeline.ownSems0_none]
    iintro H
    ihave H' := (hout c) $$ H
    icases H' with ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full fun w => hq c w)
      (fun b : Ref sig .tc => Vi c b) (fun b : Ref sig .tc => Vo c b) ((pdats m p c).arrAt · (cfgs p).N)
      (fun w => by
        by_cases h : w = o
        · rw [h]; exact (hfin c).symm
        · exact ((pdats m p c).arrAt_in w (hio w h) _).trans ((hA c w).trans
            (hupd c _ fun e => h (lf.win.arr_inj e)).symm))
      (fun b hb => hupd c b fun e => hb (Finset.mem_image.mpr ⟨o, Finset.mem_univ _, e.symm⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m p c).owed (Fin.last (Pipeline.pin (pcfgs (F := F)) adm p).N) = 0 from howed c _]; iexact HO

def reg0 := regSeg m 0 launch0 (V3 m) (V4 m (outs m)) 4 (by decide) (fun _ _ => rfl) (fun _ _ => rfl) (fun _ _ => rfl)
  (fun _ => rfl) (ΦA_in spec0) (ΦA_out spec0) (body_obligation0 (En0 m))
  (fun c b hb => V4_of m (outs m) c b fun h => hb (List.mem_singleton.mp h))
  (fun c => by simp only [V4, Function.update_self, outs_4]; rfl)
def reg1 := regSeg m 1 launch1 (V7 m (outs m)) (V8 m (outs m)) 4 (by decide) (fun c _ => by rw [V7_outs m c]; rfl) (fun _ _ => rfl) (fun _ _ => rfl)
  (fun _ => rfl) (ΦA_in spec1) (ΦA_out spec1) (body_obligation1 (En1 m))
  (fun c b hb => V8_of m (outs m) c b fun h => hb (List.mem_singleton.mp h))
  (fun c => by simp only [V8, Function.update_self, outs_8]; rfl)
def reg2 := regSeg m 2 launch2 (V11 m (outs m)) (V12 m (outs m)) 4 (by decide) (fun c _ => by rw [V11_outs m c]; rfl) (fun _ _ => rfl) (fun _ _ => rfl)
  (fun _ => rfl) (ΦA_in spec2) (ΦA_out spec2) (body_obligation2 (En2 m))
  (fun c b hb => V12_of m (outs m) c b fun h => hb (List.mem_singleton.mp h))
  (fun c => by simp only [V12, Function.update_self, outs_12]; rfl)
def reg3 := regSeg m 3 launch3 (V13 m (outs m)) (V14 m (outs m)) 2 (by decide) (fun c _ => by rw [V13_outs m c]; rfl) (fun _ _ => rfl) (fun _ _ => rfl)
  (fun _ => rfl) (hin3 (En3 m)) (hout3 (En3 m)) (body_obligation3 (En3 m))
  (fun c b hb => V14_of m (outs m) c b fun h => hb (List.mem_singleton.mp h))
  (fun c => by simp only [V14, Function.update_self, outs_14]; rfl)
def reg4 := regSeg m 4 launch4 (V14 m (outs m)) (V15 m (outs m)) 5 (by decide) (fun c _ => by rw [V14_outs m c]; rfl) (fun _ _ => rfl) (fun _ _ => rfl)
  (fun _ => rfl) (ΦA_in spec4) (ΦA_out spec4) (body_obligation4 (En4 m))
  (fun c b hb => V15_of m (outs m) c b fun h => hb (List.mem_singleton.mp h))
  (fun c => by simp only [V15, Function.update_self, outs_15]; rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem last_link (c : Dev nD) :
    (iprop(StableHlo.held (c : Thread nD τ) (Pipeline.ucRefs τ sig) (V15 m (outs m) c) ∗ Rst c) : sProp 𝕄)
      ⊢ iprop((StableHlo.held (c : Thread nD τ) (Pipeline.ucRefs τ sig) (V15 m (outs m) c) ∗ ∃ r, prngReg c r)
          ∗ ∃ W, owes (c : Thread nD τ) (0 : CellTallies nD τ sig Unit) W) := by
  iintro ⟨Hh, Hp, HO⟩
  iframe Hh Hp HO

set_option backward.isDefEq.respectTransparency.types false in
/-- Every weakly fair execution of @main terminates, nothing faulting, with every unscoped buffer at the last valuation. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V15 m (outs m) c b) := by
  refine Pipeline.θ_run_regions_kit_dev (pcfgs (F := F)) adm (pdats m) () cellOf_inj emb₁ defs₀ 𝒱₀ L lv m ρ main
    (segs m (outs m) 𝒱₀ L lv (fun _ => Rst) () (pdats m) (reg0 m) (reg1 m) (reg2 m) (reg3 m) (reg4 m))
    (fun c Q => by
      rewrite [main_chain c, Seg.run_eq_chain,
        show (segs m (outs m) 𝒱₀ L lv (fun _ => Rst) () (pdats m) (reg0 m) (reg1 m) (reg2 m) (reg3 m) (reg4 m) c).map Seg.prog = [
          StableHlo.seq hostOps0, StableHlo.seq hostOps0_1, StableHlo.seq hostOps0_2, Prog.lift (.customCall (Pipeline.entry 0) ()),
          StableHlo.seq hostOps1, StableHlo.seq hostOps1_1, StableHlo.seq hostOps1_2, Prog.lift (.customCall (Pipeline.entry 1) ()),
          StableHlo.seq hostOps2, StableHlo.seq hostOps2_1, StableHlo.seq hostOps2_2, Prog.lift (.customCall (Pipeline.entry 2) ()),
          StableHlo.seq hostOps3, Prog.lift (.customCall (Pipeline.entry 3) ()), Prog.lift (.customCall (Pipeline.entry 4) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => iprop(StableHlo.held (c : Thread nD τ) (Pipeline.ucRefs τ sig) (V15 m (outs m) c) ∗ ∃ r, prngReg c r))
    (hch := fun c => ⟨.rfl, .rfl, .rfl, .rfl, .rfl, .rfl, .rfl, .rfl, .rfl, .rfl, .rfl, .rfl, .rfl, .rfl, .rfl, last_link m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V15 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V15 m (outs m) c) s')
      isplitl [Hh] <;> iassumption)
    (hQ := fun _ h => h)

theorem V15_main_v63 (c : Dev nD) : V15 m (outs m) c main_v63 = o15 m c := by
  simp only [V15, Function.update_self, outs_15]

end Cert.Kernel.Hand

end
-- ==== Proof.KI.Reg0.lean ====
import proofs.«419434_j67937792688559_2_alg».proof.Proof.Gen.KernelIdeal.Launch
import proofs.«419434_j67937792688559_2_alg».proof.Proof.Gen.KernelIdeal.Skeleton
import proofs.«419434_j67937792688559_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

private theorem zeros0_2 : (![0, 0] : Fin 2 → Nat) = fun _ => 0 := by
  funext a; fin_cases a <;> rfl

private theorem zeros0_1 : (![0] : Fin 1 → Nat) = fun _ => 0 := by
  funext a; fin_cases a; rfl

abbrev tile0 : Rect S5000x128 := Rect.unit (s := S5000x128) ![0, 0] S5000x128.size inb_S5000x128_S5000x128_0_0

theorem covers0 (p : Vec F S5000x128 .f32) (y : S5000x128.Idx) :
    ∃ pc ∈ ([⟨tile0, p⟩] : List (View.Piece (Elt F) S5000x128 .f32)), y ∈ pc.1.set :=
  ⟨_, List.mem_singleton_self _, View.mem_set_unit_zero (S := S5000x128) zeros0_2 inb_S5000x128_S5000x128_0_0 y⟩

set_option maxHeartbeats 1000000 in
theorem sound_kernel0 (c : Dev nD) (E : Set ℕ) (i : grid0.Coords)
    (arg1 : Memref sig .tc .vmem S5000x64 .f32) (harg1 : arg1.IsWhole) (arg2 : Memref sig .tc .vmem S5000x64 .f32) (harg2 : arg2.IsWhole)
    (arg3 : Memref sig .tc .vmem S64x128 .f32) (harg3 : arg3.IsWhole) (arg4 : Memref sig .tc .vmem S128 .f32) (harg4 : arg4.IsWhole)
    (arg5 : Memref sig .tc .vmem S5000x128 .f32) (harg5 : arg5.IsWhole)
    (x0 x1 : Vec F S5000x64 .f32) (x2 : Vec F S64x128 .f32) (x3 : Vec F S128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k0_pay1 x0 x1 x2 x3)) -∗ K ⟨⟩))
      ⊢ wp frame (wpE (defs₀ (F := F)) Variants.none c none) E (cc0__update_kernel i arg1 harg1 arg2 harg2 arg3 harg3 arg4 harg4 arg5 harg5) K := by
  simp only [cc0__update_kernel_eq_skeleton]; unfold cc0__update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (covers0 _),
    View.canon_unit_zero (S := S5000x128) zeros0_2 inb_S5000x128_S5000x128_0_0]
  simp only [View.readAt_eq_ld, View.ld_unit_zero (S := S5000x64) zeros0_2,
    View.ld_unit_zero (S := S64x128) zeros0_2, View.ld_unit_zero (S := S128) zeros0_1]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay1 (iblk0 V c 0 t) (iblk0 V c 1 t) (iblk0 V c 2 t) (iblk0 V c 3 t)
  Φ _ := Pipeline.ΦA spec0 c
  q _ := fullShare
  owed _ := 0

theorem after0_out (c : Dev nD) (t : Fin cfg0.N) :
    (dat0 V c).after 4 t = k0_pay1 (iblk0 V c 0 t) (iblk0 V c 1 t) (iblk0 V c 2 t) (iblk0 V c 3 t) := rfl

theorem before0 (c : Dev nD) (t : Fin cfg0.N) : (∀ d, (dat0 V c).before 0 t d = iblk0 V c 0 t) ∧ (∀ d, (dat0 V c).before 1 t d = iblk0 V c 1 t)
    ∧ (∀ d, (dat0 V c).before 2 t d = iblk0 V c 2 t) ∧ (∀ d, (dat0 V c).before 3 t d = iblk0 V c 3 t) :=
  ⟨fun d => ((dat0 V c).before_in_eq_fetched 0 rfl (fun _ => rfl) (fun _ _ _ => rfl) (fun _ => rfl) t d).trans rfl,
   fun d => ((dat0 V c).before_in_eq_fetched 1 rfl (fun _ => rfl) (fun _ _ _ => rfl) (fun _ => rfl) t d).trans rfl,
   fun d => ((dat0 V c).before_in_eq_fetched 2 rfl (fun _ => rfl) (fun _ _ _ => rfl) (fun _ => rfl) t d).trans rfl,
   fun d => ((dat0 V c).before_in_eq_fetched 3 rfl (fun _ => rfl) (fun _ _ _ => rfl) (fun _ => rfl) t d).trans rfl⟩

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.castSucc ∗ (dat0 V c).owesAt () t.castSucc
    ∗ owns (c : Thread nD τ) (st0_0 t) fullShare (iblk0 V c 0 t)
    ∗ owns (c : Thread nD τ) (st0_1 t) fullShare (iblk0 V c 1 t)
    ∗ owns (c : Thread nD τ) (st0_2 t) fullShare (iblk0 V c 2 t)
    ∗ owns (c : Thread nD τ) (st0_3 t) fullShare (iblk0 V c 3 t)
    ∗ owns (c : Thread nD τ) (st0_4 t) fullShare (k0_pay1 (iblk0 V c 0 t) (iblk0 V c 1 t) (iblk0 V c 2 t) (iblk0 V c 3 t)))

theorem body_obligation0 (c : Dev nD) : BodyObligation (dat0 (F := F) V c) (defs₀ (F := F)) Variants.none () Set.univ := fun t => by
  rw [bigSep_W0, bigSep_W0]
  show bodyPre0 V c t ⊢ wp frame (wpE (defs₀ (F := F)) Variants.none c none) Set.univ (bodyAt0 t) (fun _ => bodyPost0 V c t)
  unfold bodyPre0 bodyPost0 bodyAt0
  obtain ⟨h0, h1, h2, h3⟩ := before0 V c t
  simp only [h0, h1, h2, h3]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _
    (iblk0 V c 0 t) (iblk0 V c 1 t) (iblk0 V c 2 t) (iblk0 V c 3 t) _)
  iframe H0 H1 H2 H3
  isplitl [H4]; · iexists _; iexact H4
  iintro ⟨H0, H1, H2, H3, H4⟩
  iframe HΦ Ho H0 H1 H2 H3 H4

end Cert.KernelIdeal.Hand

end
-- ==== Proof.KI.Reg1.lean ====
import proofs.«419434_j67937792688559_2_alg».proof.Proof.Gen.KernelIdeal.Launch
import proofs.«419434_j67937792688559_2_alg».proof.Proof.Gen.KernelIdeal.Skeleton
import proofs.«419434_j67937792688559_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

private theorem zeros1_2 : (![0, 0] : Fin 2 → Nat) = fun _ => 0 := by
  funext a; fin_cases a <;> rfl

private theorem zeros1_1 : (![0] : Fin 1 → Nat) = fun _ => 0 := by
  funext a; fin_cases a; rfl

abbrev tile1 : Rect S5000x128 := Rect.unit (s := S5000x128) ![0, 0] S5000x128.size inb_S5000x128_S5000x128_0_0

theorem covers1 (p : Vec F S5000x128 .f32) (y : S5000x128.Idx) :
    ∃ pc ∈ ([⟨tile1, p⟩] : List (View.Piece (Elt F) S5000x128 .f32)), y ∈ pc.1.set :=
  ⟨_, List.mem_singleton_self _, View.mem_set_unit_zero (S := S5000x128) zeros1_2 inb_S5000x128_S5000x128_0_0 y⟩

set_option maxHeartbeats 1000000 in
theorem sound_kernel1 (c : Dev nD) (E : Set ℕ) (i : grid1.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128 .f32) (harg4 : arg4.IsWhole)
    (arg5 : Memref sig .tc .vmem S5000x128 .f32) (harg5 : arg5.IsWhole)
    (x0 x1 : Vec F S5000x128 .f32) (x2 : Vec F S128x128 .f32) (x3 : Vec F S128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k1_pay1 x0 x1 x2 x3)) -∗ K ⟨⟩))
      ⊢ wp frame (wpE (defs₀ (F := F)) Variants.none c none) E (cc1__update_kernel i arg1 harg1 arg2 harg2 arg3 harg3 arg4 harg4 arg5 harg5) K := by
  simp only [cc1__update_kernel_eq_skeleton]; unfold cc1__update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (covers1 _),
    View.canon_unit_zero (S := S5000x128) zeros1_2 inb_S5000x128_S5000x128_0_0]
  simp only [View.readAt_eq_ld, View.ld_unit_zero (S := S5000x128) zeros1_2,
    View.ld_unit_zero (S := S128x128) zeros1_2, View.ld_unit_zero (S := S128) zeros1_1]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay1 (iblk1 V c 0 t) (iblk1 V c 1 t) (iblk1 V c 2 t) (iblk1 V c 3 t)
  Φ _ := Pipeline.ΦA spec1 c
  q _ := fullShare
  owed _ := 0

theorem after1_out (c : Dev nD) (t : Fin cfg1.N) :
    (dat1 V c).after 4 t = k1_pay1 (iblk1 V c 0 t) (iblk1 V c 1 t) (iblk1 V c 2 t) (iblk1 V c 3 t) := rfl

theorem before1 (c : Dev nD) (t : Fin cfg1.N) : (∀ d, (dat1 V c).before 0 t d = iblk1 V c 0 t) ∧ (∀ d, (dat1 V c).before 1 t d = iblk1 V c 1 t)
    ∧ (∀ d, (dat1 V c).before 2 t d = iblk1 V c 2 t) ∧ (∀ d, (dat1 V c).before 3 t d = iblk1 V c 3 t) :=
  ⟨fun d => ((dat1 V c).before_in_eq_fetched 0 rfl (fun _ => rfl) (fun _ _ _ => rfl) (fun _ => rfl) t d).trans rfl,
   fun d => ((dat1 V c).before_in_eq_fetched 1 rfl (fun _ => rfl) (fun _ _ _ => rfl) (fun _ => rfl) t d).trans rfl,
   fun d => ((dat1 V c).before_in_eq_fetched 2 rfl (fun _ => rfl) (fun _ _ _ => rfl) (fun _ => rfl) t d).trans rfl,
   fun d => ((dat1 V c).before_in_eq_fetched 3 rfl (fun _ => rfl) (fun _ _ _ => rfl) (fun _ => rfl) t d).trans rfl⟩

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.castSucc ∗ (dat1 V c).owesAt () t.castSucc
    ∗ owns (c : Thread nD τ) (st1_0 t) fullShare (iblk1 V c 0 t)
    ∗ owns (c : Thread nD τ) (st1_1 t) fullShare (iblk1 V c 1 t)
    ∗ owns (c : Thread nD τ) (st1_2 t) fullShare (iblk1 V c 2 t)
    ∗ owns (c : Thread nD τ) (st1_3 t) fullShare (iblk1 V c 3 t)
    ∗ owns (c : Thread nD τ) (st1_4 t) fullShare (k1_pay1 (iblk1 V c 0 t) (iblk1 V c 1 t) (iblk1 V c 2 t) (iblk1 V c 3 t)))

theorem body_obligation1 (c : Dev nD) : BodyObligation (dat1 (F := F) V c) (defs₀ (F := F)) Variants.none () Set.univ := fun t => by
  rw [bigSep_W1, bigSep_W1]
  show bodyPre1 V c t ⊢ wp frame (wpE (defs₀ (F := F)) Variants.none c none) Set.univ (bodyAt1 t) (fun _ => bodyPost1 V c t)
  unfold bodyPre1 bodyPost1 bodyAt1
  obtain ⟨h0, h1, h2, h3⟩ := before1 V c t
  simp only [h0, h1, h2, h3]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _
    (iblk1 V c 0 t) (iblk1 V c 1 t) (iblk1 V c 2 t) (iblk1 V c 3 t) _)
  iframe H0 H1 H2 H3
  isplitl [H4]; · iexists _; iexact H4
  iintro ⟨H0, H1, H2, H3, H4⟩
  iframe HΦ Ho H0 H1 H2 H3 H4

end Cert.KernelIdeal.Hand

end
-- ==== Proof.KI.Reg2.lean ====
import proofs.«419434_j67937792688559_2_alg».proof.Proof.Gen.KernelIdeal.Launch
import proofs.«419434_j67937792688559_2_alg».proof.Proof.Gen.KernelIdeal.Skeleton
import proofs.«419434_j67937792688559_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

private theorem zeros2_2 : (![0, 0] : Fin 2 → Nat) = fun _ => 0 := by
  funext a; fin_cases a <;> rfl

private theorem zeros2_1 : (![0] : Fin 1 → Nat) = fun _ => 0 := by
  funext a; fin_cases a; rfl

abbrev tile2 : Rect S5000x128 := Rect.unit (s := S5000x128) ![0, 0] S5000x128.size inb_S5000x128_S5000x128_0_0

theorem covers2 (p : Vec F S5000x128 .f32) (y : S5000x128.Idx) :
    ∃ pc ∈ ([⟨tile2, p⟩] : List (View.Piece (Elt F) S5000x128 .f32)), y ∈ pc.1.set :=
  ⟨_, List.mem_singleton_self _, View.mem_set_unit_zero (S := S5000x128) zeros2_2 inb_S5000x128_S5000x128_0_0 y⟩

set_option maxHeartbeats 1000000 in
theorem sound_kernel2 (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128 .f32) (harg4 : arg4.IsWhole)
    (arg5 : Memref sig .tc .vmem S5000x128 .f32) (harg5 : arg5.IsWhole)
    (x0 x1 : Vec F S5000x128 .f32) (x2 : Vec F S128x128 .f32) (x3 : Vec F S128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (k2_pay1 x0 x1 x2 x3)) -∗ K ⟨⟩))
      ⊢ wp frame (wpE (defs₀ (F := F)) Variants.none c none) E (cc2__update_kernel i arg1 harg1 arg2 harg2 arg3 harg3 arg4 harg4 arg5 harg5) K := by
  simp only [cc2__update_kernel_eq_skeleton]; unfold cc2__update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (covers2 _),
    View.canon_unit_zero (S := S5000x128) zeros2_2 inb_S5000x128_S5000x128_0_0]
  simp only [View.readAt_eq_ld, View.ld_unit_zero (S := S5000x128) zeros2_2,
    View.ld_unit_zero (S := S128x128) zeros2_2, View.ld_unit_zero (S := S128) zeros2_1]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay1 (iblk2 V c 0 t) (iblk2 V c 1 t) (iblk2 V c 2 t) (iblk2 V c 3 t)
  Φ _ := Pipeline.ΦA spec2 c
  q _ := fullShare
  owed _ := 0

theorem after2_out (c : Dev nD) (t : Fin cfg2.N) :
    (dat2 V c).after 4 t = k2_pay1 (iblk2 V c 0 t) (iblk2 V c 1 t) (iblk2 V c 2 t) (iblk2 V c 3 t) := rfl

theorem before2 (c : Dev nD) (t : Fin cfg2.N) : (∀ d, (dat2 V c).before 0 t d = iblk2 V c 0 t) ∧ (∀ d, (dat2 V c).before 1 t d = iblk2 V c 1 t)
    ∧ (∀ d, (dat2 V c).before 2 t d = iblk2 V c 2 t) ∧ (∀ d, (dat2 V c).before 3 t d = iblk2 V c 3 t) :=
  ⟨fun d => ((dat2 V c).before_in_eq_fetched 0 rfl (fun _ => rfl) (fun _ _ _ => rfl) (fun _ => rfl) t d).trans rfl,
   fun d => ((dat2 V c).before_in_eq_fetched 1 rfl (fun _ => rfl) (fun _ _ _ => rfl) (fun _ => rfl) t d).trans rfl,
   fun d => ((dat2 V c).before_in_eq_fetched 2 rfl (fun _ => rfl) (fun _ _ _ => rfl) (fun _ => rfl) t d).trans rfl,
   fun d => ((dat2 V c).before_in_eq_fetched 3 rfl (fun _ => rfl) (fun _ _ _ => rfl) (fun _ => rfl) t d).trans rfl⟩

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.castSucc ∗ (dat2 V c).owesAt () t.castSucc
    ∗ owns (c : Thread nD τ) (st2_0 t) fullShare (iblk2 V c 0 t)
    ∗ owns (c : Thread nD τ) (st2_1 t) fullShare (iblk2 V c 1 t)
    ∗ owns (c : Thread nD τ) (st2_2 t) fullShare (iblk2 V c 2 t)
    ∗ owns (c : Thread nD τ) (st2_3 t) fullShare (iblk2 V c 3 t)
    ∗ owns (c : Thread nD τ) (st2_4 t) fullShare (k2_pay1 (iblk2 V c 0 t) (iblk2 V c 1 t) (iblk2 V c 2 t) (iblk2 V c 3 t)))

theorem body_obligation2 (c : Dev nD) : BodyObligation (dat2 (F := F) V c) (defs₀ (F := F)) Variants.none () Set.univ := fun t => by
  rw [bigSep_W2, bigSep_W2]
  show bodyPre2 V c t ⊢ wp frame (wpE (defs₀ (F := F)) Variants.none c none) Set.univ (bodyAt2 t) (fun _ => bodyPost2 V c t)
  unfold bodyPre2 bodyPost2 bodyAt2
  obtain ⟨h0, h1, h2, h3⟩ := before2 V c t
  simp only [h0, h1, h2, h3]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _
    (iblk2 V c 0 t) (iblk2 V c 1 t) (iblk2 V c 2 t) (iblk2 V c 3 t) _)
  iframe H0 H1 H2 H3
  isplitl [H4]; · iexists _; iexact H4
  iintro ⟨H0, H1, H2, H3, H4⟩
  iframe HΦ Ho H0 H1 H2 H3 H4

end Cert.KernelIdeal.Hand

end
-- ==== Proof.KI.Reg3.lean ====
import proofs.«419434_j67937792688559_2_alg».proof.Proof.Gen.KernelIdeal.Launch
import proofs.«419434_j67937792688559_2_alg».proof.Proof.Gen.KernelIdeal.Skeleton
import proofs.«419434_j67937792688559_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def acc3 (c : Dev nD) : ℕ → Vec F S512x128 .f32
  | 0 => k3_pay1
  | n + 1 => if h : n < cfg3.N then k3_pay2 (iblk3 V c 0 ⟨n, h⟩) (iblk3 V c 1 ⟨n, h⟩) (acc3 c n) else acc3 c n

theorem acc3_succ (c : Dev nD) (t : Fin cfg3.N) :
    acc3 V c (t.val + 1) = k3_pay2 (iblk3 V c 0 t) (iblk3 V c 1 t) (acc3 V c t.val) :=
  dif_pos t.isLt

-- Reading the scratch as the reset value at the first point lets one invariant serve every point.
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c cfg3.N
  Φ t := iprop((∃ r, prngReg c r)
    ∗ Pipeline.scopedRestBut spec3 c [cc3_scratch0]
    ∗ (∃ X : Vec F S512x128 .f32, ⌜(if t.val = 0 then k3_pay1 else X) = acc3 V c t.val⌝ ∗ owns c.tc (Memref.whole cc3_scratch0) fullShare X))
  q _ := fullShare
  owed _ := 0

theorem after3_out (c : Dev nD) (t : Fin cfg3.N) : (dat3 V c).after 2 t = acc3 V c cfg3.N := rfl

theorem before3_0 (c : Dev nD) (t : Fin cfg3.N) (d) : (dat3 V c).before 0 t d = iblk3 V c 0 t :=
  ((dat3 V c).before_fetched 0 t (fetch3_0 t) d).trans rfl

theorem before3_1 (c : Dev nD) (t : Fin cfg3.N) (d) : (dat3 V c).before 1 t d = iblk3 V c 1 t :=
  ((dat3 V c).before_fetched 1 t (fetch3_1 t) d).trans rfl

abbrev cond3_0 (i : grid3.Coords) : Prop :=
  (Scalar.cmpi .ne (Scalar.extui (Scalar.cmpi .eq (BitVec.ofNat 32 (i 0).val) 0#32)) 0#32) = 1#1

theorem pts3 : ∀ t : Fin cfg3.N, (cond3_0 (grid3.coords t) ↔ t.val = 0) ∧ (k3_cond2 (grid3.coords t) = 1#1 ↔ t.val = 99)
    ∧ (cfg3.idle 2 (cfg3.grid.coords t) = true ↔ t.val ≠ 99) ∧ ((cfg3.win 2).flush t = true ↔ t.val = 99) := by
  decide +kernel

theorem hz3 : (![0, 0] : Fin 2 → Nat) = fun _ => 0 := by decide

theorem store_whole3 {κ : Kind} {sp : Space} {d : Fin 2 → ℕ} {e : EltTy} (v : View sig κ sp ⟨2, d⟩ e) (f : v.ty.Contents (Elt F))
    {off : Fin 2 → ℕ} (hz : off = fun _ => 0) (inb) (w : Vec F ⟨2, d⟩ e) (L : List (View.Piece (Elt F) ⟨2, d⟩ e)) :
    v.read (Elt F) (v.writes (Elt F) f ((⟨Rect.unit (s := ⟨2, d⟩) off d inb, w⟩ : View.Piece (Elt F) ⟨2, d⟩ e) :: L)) = w := by
  subst hz; funext y
  have h := View.read_writes_cons_emb v f (Rect.whole _) w L y
  rw [Rect.emb_whole_apply] at h; exact h

set_option maxHeartbeats 400000 in
theorem run3 (c : Dev nD) {i : grid3.Coords} {arg1 : Memref sig .tc .vmem S1000x128 .f32} {harg1 : arg1.IsWhole}
    {arg2 : Memref sig .tc .vmem S1000x1 .i32} {harg2 : arg2.IsWhole} {arg3 arg4 : Memref sig .tc .vmem S512x128 .f32} {harg3 : arg3.IsWhole}
    {harg4 : arg4.IsWhole} {p0 p1 : Prop} [Decidable p0] [Decidable p1] (h0 : cond3_0 i ↔ p0) (h1 : k3_cond2 i = 1#1 ↔ p1)
    {x0 : Vec F S1000x128 .f32} {x1 : Vec F S1000x1 .i32} {xo xs Y : Vec F S512x128 .f32}
    (hY : k3_pay2 x0 x1 (if p0 then k3_pay1 else xs) = Y) {E : Set ℕ} {K : PUnit → sProp 𝕄} :
    iprop(owns c.tc arg1 fullShare x0 ∗ owns c.tc arg2 fullShare x1 ∗ owns c.tc arg3 fullShare xo ∗ owns c.tc arg4 fullShare xs
        ∗ (iprop(owns c.tc arg1 fullShare x0 ∗ owns c.tc arg2 fullShare x1 ∗ owns c.tc arg3 fullShare (if p1 then Y else xo)
            ∗ owns c.tc arg4 fullShare Y) -∗ K ⟨⟩))
      ⊢ wp frame (wpE (defs₀ (F := F)) Variants.none c none) E (cc3__pool_kernel i arg1 harg1 arg2 harg2 arg3 harg3 arg4 harg4) K := by
  subst hY
  simp only [cc3__pool_kernel_eq_skeleton]; unfold cc3__pool_kernel_skel owns
  by_cases hp0 : p0 <;> by_cases hp1 : p1 <;> simp only [hp0, hp1, if_true, if_false]
  all_goals
    iintro ⟨⟨%f0, %hf0, H0⟩, ⟨%f1, %hf1, H1⟩, ⟨%f2, %hf2, H2⟩, ⟨%f3, %hf3, H3⟩, Hk⟩
    obtain rfl := harg1.eq_unread hf0; obtain rfl := harg2.eq_unread hf1; obtain rfl := harg3.eq_unread hf2; obtain rfl := harg4.eq_unread hf3
    sl_exec (disch := first | exact h0.mpr hp0 | exact mt h0.mp hp0 | exact h1.mpr hp1 | exact mt h1.mp hp1)
    sl_step
    iapply Hk
    isplitl [H0]; rotate_left; isplitl [H1]; rotate_left; isplitl [H2]
    all_goals
      iexists _; iframe; ipureintro; try sl_unfold_run_names
      simp only [store_whole3 _ _ hz3, View.readCov_cons_toLoadRect, View.readAt_eq_ld, Memref.IsWhole.read_unread, View.ld_unit_zero (S := ⟨2, _⟩) hz3]

theorem body_obligation3 (c : Dev nD) : BodyObligation (dat3 (F := F) V c) (defs₀ (F := F)) Variants.none () Set.univ := fun t => by
  obtain ⟨h0, h99, hi, hf⟩ := pts3 t
  have h2 : ∀ d, owns c.tc (st3_2 t) fullShare (if t.val = 99 then acc3 V c (t.val + 1) else (dat3 V c).before 2 t d) ⊢ (dat3 V c).leavesExact 2 t := fun d => by
    by_cases h : t.val = 99
    · unfold Dat.leavesExact; rw [if_pos h, h, Bool.eq_false_iff.mpr fun e => hi.mp e h]; exact .rfl
    · rw [if_neg h, Dat.leavesExact_idle _ 2 t (hi.mpr h) (Bool.eq_false_iff.mpr fun e => h (hf.mp e))]
      iintro H; iexists d; iexact H
  rw [bigSep_W3, bigSep_W3]
  simp only [before3_0, before3_1]
  simp only [dat3]
  show _ ⊢ wp _ _ _ (bodyAt3 t) _
  iintro ⟨⟨Hr, Hrest, ⟨%X, %hX, HS⟩⟩, Ho, ⟨%d0, H0⟩, ⟨%d1, H1⟩, ⟨%d2, H2⟩⟩
  iapply run3 c h0 h99 ((congrArg _ hX).trans (acc3_succ V c t).symm)
  iframe H0 H1 H2 HS
  iintro ⟨H0, H1, H2, HS⟩
  iframe Hr Hrest H0 H1
  isplitl [HS]
  · iexists _; iframe HS; ipureintro; exact if_neg (Nat.succ_ne_zero _)
  isplitl [Ho]; · iexact Ho
  iapply h2 d2; iexact H2

theorem hin3 (c : Dev nD) :
    (iprop((∃ r, prngReg c r) ∗ Pipeline.scopedRest spec3 c) : sProp 𝕄) ⊢ (dat3 V c).Φ 0 := by
  simp only [dat3, scopedRest3_split, owns_whole]
  iintro ⟨Hr, ⟨%f, Hs⟩, Hrest⟩
  iframe Hr Hrest
  iexists f; iframe Hs; ipureintro; exact if_pos rfl

theorem hout3 (c : Dev nD) :
    (dat3 V c).Φ (Fin.last cfg3.N) ⊢ (iprop((∃ r, prngReg c r) ∗ Pipeline.scopedRest spec3 c) : sProp 𝕄) := by
  simp only [dat3, scopedRest3_split, owns_whole]
  iintro ⟨Hr, Hrest, ⟨%X, -, Hs⟩⟩
  iframe Hr Hrest
  iexists X; iexact Hs

end Cert.KernelIdeal.Hand

end
-- ==== Proof.KI.Reg4.lean ====
import proofs.«419434_j67937792688559_2_alg».proof.Proof.Gen.KernelIdeal.Launch
import proofs.«419434_j67937792688559_2_alg».proof.Proof.Gen.KernelIdeal.Skeleton
import proofs.«419434_j67937792688559_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

private theorem zeros2 : (![0, 0] : Fin 2 → Nat) = fun _ => 0 := funext fun a => by fin_cases a <;> rfl

private theorem zeros1 : (![0] : Fin 1 → Nat) = fun _ => 0 := funext fun a => by fin_cases a; rfl

set_option maxHeartbeats 1000000 in
private theorem sound_kernel4 (c : Dev nD) (E : Set ℕ) (i : grid4.Coords)
    (arg1 : Memref sig .tc .vmem S512x128 .f32) (harg1 : arg1.IsWhole)
    (arg2 : Memref sig .tc .vmem S128x256 .f32) (harg2 : arg2.IsWhole)
    (arg3 : Memref sig .tc .vmem S256 .f32) (harg3 : arg3.IsWhole)
    (arg4 : Memref sig .tc .vmem S256x32 .f32) (harg4 : arg4.IsWhole)
    (arg5 : Memref sig .tc .vmem S32 .f32) (harg5 : arg5.IsWhole)
    (arg6 : Memref sig .tc .vmem S512x32 .f32) (harg6 : arg6.IsWhole)
    (x0 : Vec F S512x128 .f32) (x1 : Vec F S128x256 .f32) (x2 : Vec F S256 .f32) (x3 : Vec F S256x32 .f32) (x4 : Vec F S32 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (k4_pay1 x0 x1 x2 x3 x4)) -∗ K ⟨⟩))
      ⊢ wp frame (wpE (defs₀ (F := F)) Variants.none c none) E
          (cc4__head_kernel i arg1 harg1 arg2 harg2 arg3 harg3 arg4 harg4 arg5 harg5 arg6 harg6) K := by
  simp only [cc4__head_kernel_eq_skeleton]; unfold cc4__head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => ⟨_, List.mem_singleton_self _, View.mem_set_unit_zero zeros2 inb_S512x32_S512x32_0_0 y⟩),
    View.canon_unit_zero zeros2]
  simp only [View.readAt_eq_ld, View.ld_unit_zero (S := S512x128) zeros2, View.ld_unit_zero (S := S128x256) zeros2,
    View.ld_unit_zero (S := S256) zeros1, View.ld_unit_zero (S := S256x32) zeros2, View.ld_unit_zero (S := S32) zeros1]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => k4_pay1 (iblk4 V c 0 t) (iblk4 V c 1 t) (iblk4 V c 2 t) (iblk4 V c 3 t) (iblk4 V c 4 t)
  Φ _ := Pipeline.ΦA spec4 c
  q _ := fullShare
  owed _ := 0

theorem after4_out (c : Dev nD) (t : Fin cfg4.N) :
    (dat4 V c).after 5 t = k4_pay1 (iblk4 V c 0 t) (iblk4 V c 1 t) (iblk4 V c 2 t) (iblk4 V c 3 t) (iblk4 V c 4 t) := rfl

private theorem before4 (c : Dev nD) (t : Fin cfg4.N) : (∀ d, (dat4 V c).before 0 t d = iblk4 V c 0 t) ∧ (∀ d, (dat4 V c).before 1 t d = iblk4 V c 1 t)
    ∧ (∀ d, (dat4 V c).before 2 t d = iblk4 V c 2 t) ∧ (∀ d, (dat4 V c).before 3 t d = iblk4 V c 3 t) ∧ (∀ d, (dat4 V c).before 4 t d = iblk4 V c 4 t) :=
  ⟨fun d => ((dat4 V c).before_fetched 0 t (fetch4_0 t) d).trans rfl, fun d => ((dat4 V c).before_fetched 1 t (fetch4_1 t) d).trans rfl,
   fun d => ((dat4 V c).before_fetched 2 t (fetch4_2 t) d).trans rfl, fun d => ((dat4 V c).before_fetched 3 t (fetch4_3 t) d).trans rfl,
   fun d => ((dat4 V c).before_fetched 4 t (fetch4_4 t) d).trans rfl⟩

private def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

private def bodyPost4 (c : Dev nD) (t : Fin cfg4.N) : sProp 𝕄 :=
  iprop((dat4 V c).Φ t.castSucc ∗ (dat4 V c).owesAt () t.castSucc
    ∗ owns (c : Thread nD τ) (st4_0 t) fullShare (iblk4 V c 0 t)
    ∗ owns (c : Thread nD τ) (st4_1 t) fullShare (iblk4 V c 1 t)
    ∗ owns (c : Thread nD τ) (st4_2 t) fullShare (iblk4 V c 2 t)
    ∗ owns (c : Thread nD τ) (st4_3 t) fullShare (iblk4 V c 3 t)
    ∗ owns (c : Thread nD τ) (st4_4 t) fullShare (iblk4 V c 4 t)
    ∗ owns (c : Thread nD τ) (st4_5 t) fullShare (k4_pay1 (iblk4 V c 0 t) (iblk4 V c 1 t) (iblk4 V c 2 t) (iblk4 V c 3 t) (iblk4 V c 4 t)))

theorem body_obligation4 (c : Dev nD) : BodyObligation (dat4 (F := F) V c) (defs₀ (F := F)) Variants.none () Set.univ := fun t => by
  rw [bigSep_W4, bigSep_W4]
  show bodyPre4 V c t ⊢ wp frame (wpE (defs₀ (F := F)) Variants.none c none) Set.univ (bodyAt4 t) (fun _ => bodyPost4 V c t)
  unfold bodyPre4 bodyPost4 bodyAt4
  obtain ⟨h0, h1, h2, h3, h4⟩ := before4 V c t
  simp only [h0, h1, h2, h3, h4]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _
    (iblk4 V c 0 t) (iblk4 V c 1 t) (iblk4 V c 2 t) (iblk4 V c 3 t) (iblk4 V c 4 t) _)
  iframe H0 H1 H2 H3 H4
  isplitl [H5]; · iexists _; iexact H5
  iintro ⟨H0, H1, H2, H3, H4, H5⟩
  iframe HΦ Ho H0 H1 H2 H3 H4 H5

end Cert.KernelIdeal.Hand

end
-- ==== Proof.KI.Run.lean ====
import proofs.«419434_j67937792688559_2_alg».proof.Proof.KI.Reg0
import proofs.«419434_j67937792688559_2_alg».proof.Proof.KI.Reg1
import proofs.«419434_j67937792688559_2_alg».proof.Proof.KI.Reg2
import proofs.«419434_j67937792688559_2_alg».proof.Proof.KI.Reg3
import proofs.«419434_j67937792688559_2_alg».proof.Proof.KI.Reg4
import proofs.«419434_j67937792688559_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev En0 : (c : Dev nD) → (b : Ref sig .tc) → Buf (Elt F) ((c : Thread nD τ).loc b) := fun c b => V3 m c b
def o4 (c : Dev nD) : Buf (Elt F) ((c : Thread nD τ).loc main_v22) := (dat0 (En0 m) c).arrAt 4 cfg0.N
def outs1 : Outs (F := F) := fun _ r c => if h : r = main_v22 then h ▸ o4 m c else V3 m c r
abbrev En1 : (c : Dev nD) → (b : Ref sig .tc) → Buf (Elt F) ((c : Thread nD τ).loc b) := fun c b => V7 m (outs1 m) c b
def o8 (c : Dev nD) : Buf (Elt F) ((c : Thread nD τ).loc main_v41) := (dat1 (En1 m) c).arrAt 4 cfg1.N
def outs2 : Outs (F := F) := fun j r c => if j = 8 then (if h : r = main_v41 then h ▸ o8 m c else V3 m c r) else outs1 m j r c
abbrev En2 : (c : Dev nD) → (b : Ref sig .tc) → Buf (Elt F) ((c : Thread nD τ).loc b) := fun c b => V11 m (outs2 m) c b
def o12 (c : Dev nD) : Buf (Elt F) ((c : Thread nD τ).loc main_v60) := (dat2 (En2 m) c).arrAt 4 cfg2.N
def outs3 : Outs (F := F) := fun j r c => if j = 12 then (if h : r = main_v60 then h ▸ o12 m c else V3 m c r) else outs2 m j r c
abbrev En3 : (c : Dev nD) → (b : Ref sig .tc) → Buf (Elt F) ((c : Thread nD τ).loc b) := fun c b => V13 m (outs3 m) c b
def o14 (c : Dev nD) : Buf (Elt F) ((c : Thread nD τ).loc main_v62) := (dat3 (En3 m) c).arrAt 2 cfg3.N
def outs4 : Outs (F := F) := fun j r c => if j = 14 then (if h : r = main_v62 then h ▸ o14 m c else V3 m c r) else outs3 m j r c
abbrev En4 : (c : Dev nD) → (b : Ref sig .tc) → Buf (Elt F) ((c : Thread nD τ).loc b) := fun c b => V14 m (outs4 m) c b
def o15 (c : Dev nD) : Buf (Elt F) ((c : Thread nD τ).loc main_v63) := (dat4 (En4 m) c).arrAt 5 cfg4.N
def outs : Outs (F := F) := fun j r c => if j = 15 then (if h : r = main_v63 then h ▸ o15 m c else V3 m c r) else outs4 m j r c

theorem outs_4 (c : Dev nD) : outs m 4 main_v22 c = o4 m c := by
  simp only [outs, outs4, outs3, outs2, outs1, dif_pos, Nat.reduceEqDiff, if_false]
theorem outs_8 (c : Dev nD) : outs m 8 main_v41 c = o8 m c := by
  simp only [outs, outs4, outs3, outs2, dif_pos, Nat.reduceEqDiff, if_false, if_true]
theorem outs_12 (c : Dev nD) : outs m 12 main_v60 c = o12 m c := by
  simp only [outs, outs4, outs3, dif_pos, Nat.reduceEqDiff, if_false, if_true]
theorem outs_14 (c : Dev nD) : outs m 14 main_v62 c = o14 m c := by
  simp only [outs, outs4, dif_pos, Nat.reduceEqDiff, if_false, if_true]
theorem outs_15 (c : Dev nD) : outs m 15 main_v63 c = o15 m c := by
  simp only [outs, dif_pos, if_true]

theorem V7_outs (c : Dev nD) : V7 m (outs m) c = V7 m (outs1 m) c := by
  simp only [V7, V6, V5, V4, outs, outs4, outs3, outs2, outs1, dif_pos, Nat.reduceEqDiff, if_false, if_true]
theorem V11_outs (c : Dev nD) : V11 m (outs m) c = V11 m (outs2 m) c := by
  simp only [V11, V10, V9, V8, V7, V6, V5, V4, outs, outs4, outs3, outs2, outs1, dif_pos, Nat.reduceEqDiff, if_false, if_true]
theorem V13_outs (c : Dev nD) : V13 m (outs m) c = V13 m (outs3 m) c := by
  simp only [V13, V12, V11, V10, V9, V8, V7, V6, V5, V4, outs, outs4, outs3, outs2, outs1, dif_pos, Nat.reduceEqDiff, if_false, if_true]
theorem V14_outs (c : Dev nD) : V14 m (outs m) c = V14 m (outs4 m) c := by
  simp only [V14, V13, V12, V11, V10, V9, V8, V7, V6, V5, V4, outs, outs4, outs3, outs2, outs1, dif_pos, Nat.reduceEqDiff, if_false, if_true]

def pdats : (p : Fin 5) → (c : Dev nD) → Dat τ (Elt F) Unit ℕ (UR sig nD τ) ℕ (cfgs p) c
  | ⟨0, _⟩ => fun c => dat0 (En0 m) c
  | ⟨1, _⟩ => fun c => dat1 (En1 m) c
  | ⟨2, _⟩ => fun c => dat2 (En2 m) c
  | ⟨3, _⟩ => fun c => dat3 (En3 m) c
  | ⟨4, _⟩ => fun c => dat4 (En4 m) c

abbrev 𝒱₀ : Variants := Variants.none
abbrev L : GSem nD τ sig → Finset Unit := fun _ => ∅
abbrev lv : GSem nD τ sig → Unit → ℕ := fun _ _ => 0
abbrev Rst (c : Dev nD) : sProp 𝕄 := iprop((∃ r, prngReg c r) ∗ ∃ W, owes (c : Thread nD τ) (0 : CellTallies nD τ sig Unit) W)

theorem ΦA_in {gr W : Nat} (spec : Fin W → Pipeline.WinSpec sig gr) (c : Dev nD) :
    (iprop((∃ r, prngReg c r) ∗ Pipeline.scopedRest (Ix := Unit) (Name := ℕ) (U := UR sig nD τ) (Lvl := ℕ) (Val := Elt F) spec c) : sProp 𝕄) ⊢ Pipeline.ΦA spec c := by
  unfold Pipeline.ΦA
  iintro ⟨Hp, Hr⟩
  iframe Hp Hr
theorem ΦA_out {gr W : Nat} (spec : Fin W → Pipeline.WinSpec sig gr) (c : Dev nD) :
    Pipeline.ΦA spec c ⊢ (iprop((∃ r, prngReg c r) ∗ Pipeline.scopedRest (Ix := Unit) (Name := ℕ) (U := UR sig nD τ) (Lvl := ℕ) (Val := Elt F) spec c) : sProp 𝕄) := by
  unfold Pipeline.ΦA
  iintro ⟨Hr, Hp⟩
  iframe Hp Hr

set_option backward.isDefEq.respectTransparency.types false in
/-- One region as a step of @main from the contents Vi to the contents Vo, which differ at the region's output array only. -/
def regSeg (p : Fin 5) (lf : Pipeline.LaunchFacts (nD := nD) (τ := τ) cfgs p)
    (Vi Vo : (c : Dev nD) → Valuation τ sig (Elt F)) (o : Fin (cfgs p).W)
    (hio : ∀ w, w ≠ o → ((cfgs p).win w).isOut = false)
    (hA : ∀ c w, (pdats m p c).A w = Vi c (Pipeline.arrRef (cfgs p).spec w))
    (hq : ∀ c w, (pdats m p c).q w = fullShare)
    (howed : ∀ c t, (pdats m p c).owed t = 0)
    (hrec : ∀ c, (pdats m p c).recorded 0 = Set.univ)
    (hin : ∀ c, (iprop((∃ r, prngReg c r) ∗ Pipeline.scopedRest (Ix := Unit) (Name := ℕ) (U := UR sig nD τ) (Lvl := ℕ) (Val := Elt F) (cfgs p).spec c) : sProp 𝕄) ⊢ (pdats m p c).Φ 0)
    (hout : ∀ c, (pdats m p c).Φ (Fin.last (cfgs p).N) ⊢ (iprop((∃ r, prngReg c r) ∗ Pipeline.scopedRest (Ix := Unit) (Name := ℕ) (U := UR sig nD τ) (Lvl := ℕ) (Val := Elt F) (cfgs p).spec c) : sProp 𝕄))
    (hbody : ∀ c, BodyObligation (pdats m p c) (defs₀ (F := F)) Variants.none () Set.univ)
    (hupd : ∀ c b, b ≠ Pipeline.arrRef (cfgs p).spec o → Vo c b = Vi c b)
    (hfin : ∀ c, Vo c (Pipeline.arrRef (cfgs p).spec o) = (pdats m p c).arrAt o (cfgs p).N) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vi c) ∗ Rst c)
  post c := iprop(StableHlo.held (c : Thread nD τ) (Pipeline.ucRefs τ sig) (Vo c) ∗ Rst c)
  X c := iprop(∃ r, prngReg c r)
  Y c := iprop(∃ r, prngReg c r)
  Z c := Pipeline.unscopedRest (Ix := Unit) (Name := ℕ) (U := UR sig nD τ) (Lvl := ℕ) (cfgs p).spec c (fun b : Ref sig .tc => Vi c b)
  hentry c := by
    rw [Pipeline.ownSems0_none]
    have hsplit := Pipeline.arrays_of_unscopedBufs (p := p) (pcfgs (F := F)) adm (pdats m) lf.win lf.arr_whole c
      ((pdats m p c).share_full fun w => hq c w) (fun b : Ref sig .tc => Vi c b) fun w => hA c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; exact fun _ _ => Or.inl (by rw [hrec c]; exact Set.mem_univ _)
      rw [howed c 0]; iexact HO
    isplitl [Hp]; · iexact Hp
    iexact Hrest
  hin c := by
    iintro ⟨Hp, -, Hr⟩
    iapply (hin c)
    iframe Hp Hr
  hout c := by
    rw [Pipeline.ownSems0_none]
    iintro H
    ihave H' := (hout c) $$ H
    icases H' with ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full fun w => hq c w)
      (fun b : Ref sig .tc => Vi c b) (fun b : Ref sig .tc => Vo c b) ((pdats m p c).arrAt · (cfgs p).N)
      (fun w => by
        by_cases h : w = o
        · rw [h]; exact (hfin c).symm
        · exact ((pdats m p c).arrAt_in w (hio w h) _).trans ((hA c w).trans
            (hupd c _ fun e => h (lf.win.arr_inj e)).symm))
      (fun b hb => hupd c b fun e => hb (Finset.mem_image.mpr ⟨o, Finset.mem_univ _, e.symm⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m p c).owed (Fin.last (Pipeline.pin (pcfgs (F := F)) adm p).N) = 0 from howed c _]; iexact HO

def reg0 := regSeg m 0 launch0 (V3 m) (V4 m (outs m)) 4 (by decide) (fun _ _ => rfl) (fun _ _ => rfl) (fun _ _ => rfl)
  (fun _ => rfl) (ΦA_in spec0) (ΦA_out spec0) (body_obligation0 (En0 m))
  (fun c b hb => V4_of m (outs m) c b fun h => hb (List.mem_singleton.mp h))
  (fun c => by simp only [V4, Function.update_self, outs_4]; rfl)
def reg1 := regSeg m 1 launch1 (V7 m (outs m)) (V8 m (outs m)) 4 (by decide) (fun c _ => by rw [V7_outs m c]; rfl) (fun _ _ => rfl) (fun _ _ => rfl)
  (fun _ => rfl) (ΦA_in spec1) (ΦA_out spec1) (body_obligation1 (En1 m))
  (fun c b hb => V8_of m (outs m) c b fun h => hb (List.mem_singleton.mp h))
  (fun c => by simp only [V8, Function.update_self, outs_8]; rfl)
def reg2 := regSeg m 2 launch2 (V11 m (outs m)) (V12 m (outs m)) 4 (by decide) (fun c _ => by rw [V11_outs m c]; rfl) (fun _ _ => rfl) (fun _ _ => rfl)
  (fun _ => rfl) (ΦA_in spec2) (ΦA_out spec2) (body_obligation2 (En2 m))
  (fun c b hb => V12_of m (outs m) c b fun h => hb (List.mem_singleton.mp h))
  (fun c => by simp only [V12, Function.update_self, outs_12]; rfl)
def reg3 := regSeg m 3 launch3 (V13 m (outs m)) (V14 m (outs m)) 2 (by decide) (fun c _ => by rw [V13_outs m c]; rfl) (fun _ _ => rfl) (fun _ _ => rfl)
  (fun _ => rfl) (hin3 (En3 m)) (hout3 (En3 m)) (body_obligation3 (En3 m))
  (fun c b hb => V14_of m (outs m) c b fun h => hb (List.mem_singleton.mp h))
  (fun c => by simp only [V14, Function.update_self, outs_14]; rfl)
def reg4 := regSeg m 4 launch4 (V14 m (outs m)) (V15 m (outs m)) 5 (by decide) (fun c _ => by rw [V14_outs m c]; rfl) (fun _ _ => rfl) (fun _ _ => rfl)
  (fun _ => rfl) (ΦA_in spec4) (ΦA_out spec4) (body_obligation4 (En4 m))
  (fun c b hb => V15_of m (outs m) c b fun h => hb (List.mem_singleton.mp h))
  (fun c => by simp only [V15, Function.update_self, outs_15]; rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem last_link (c : Dev nD) :
    (iprop(StableHlo.held (c : Thread nD τ) (Pipeline.ucRefs τ sig) (V15 m (outs m) c) ∗ Rst c) : sProp 𝕄)
      ⊢ iprop((StableHlo.held (c : Thread nD τ) (Pipeline.ucRefs τ sig) (V15 m (outs m) c) ∗ ∃ r, prngReg c r)
          ∗ ∃ W, owes (c : Thread nD τ) (0 : CellTallies nD τ sig Unit) W) := by
  iintro ⟨Hh, Hp, HO⟩
  iframe Hh Hp HO

set_option backward.isDefEq.respectTransparency.types false in
/-- Every weakly fair execution of @main terminates, nothing faulting, with every unscoped buffer at the last valuation. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V15 m (outs m) c b) := by
  refine Pipeline.θ_run_regions_kit_dev (pcfgs (F := F)) adm (pdats m) () cellOf_inj emb₁ defs₀ 𝒱₀ L lv m ρ main
    (segs m (outs m) 𝒱₀ L lv (fun _ => Rst) () (pdats m) (reg0 m) (reg1 m) (reg2 m) (reg3 m) (reg4 m))
    (fun c Q => by
      rewrite [main_chain c, Seg.run_eq_chain,
        show (segs m (outs m) 𝒱₀ L lv (fun _ => Rst) () (pdats m) (reg0 m) (reg1 m) (reg2 m) (reg3 m) (reg4 m) c).map Seg.prog = [
          StableHlo.seq hostOps0, StableHlo.seq hostOps0_1, StableHlo.seq hostOps0_2, Prog.lift (.customCall (Pipeline.entry 0) ()),
          StableHlo.seq hostOps1, StableHlo.seq hostOps1_1, StableHlo.seq hostOps1_2, Prog.lift (.customCall (Pipeline.entry 1) ()),
          StableHlo.seq hostOps2, StableHlo.seq hostOps2_1, StableHlo.seq hostOps2_2, Prog.lift (.customCall (Pipeline.entry 2) ()),
          StableHlo.seq hostOps3, Prog.lift (.customCall (Pipeline.entry 3) ()), Prog.lift (.customCall (Pipeline.entry 4) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => iprop(StableHlo.held (c : Thread nD τ) (Pipeline.ucRefs τ sig) (V15 m (outs m) c) ∗ ∃ r, prngReg c r))
    (hch := fun c => ⟨.rfl, .rfl, .rfl, .rfl, .rfl, .rfl, .rfl, .rfl, .rfl, .rfl, .rfl, .rfl, .rfl, .rfl, .rfl, last_link m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V15 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (V15 m (outs m) c) s')
      isplitl [Hh] <;> iassumption)
    (hQ := fun _ h => h)

theorem V15_main_v63 (c : Dev nD) : V15 m (outs m) c main_v63 = o15 m c := by
  simp only [V15, Function.update_self, outs_15]

end Cert.KernelIdeal.Hand

end
-- ==== Proof.Spec.lean ====
import proofs.«419434_j67937792688559_2_alg».proof.Proof.Gen.ReferenceIdeal

noncomputable section

namespace Cert.Spec

open Cert.ReferenceIdeal Cert.ReferenceIdeal.Gen Idealize.ShloMosaic

abbrev Arr (F : FTy → Type) (s : Shape) (e : EltTy) : Type := (⟨s, e⟩ : BufTy).Contents (Elt F)

variable {F : FTy → Type} [FloatOps F]

def srcIdx (ei : Arr F S2x1600000 .i32) : Arr F S1600000x1 .i32 :=
  broadcastInDim S1600000x1 ![0] bcast_S1600000_S1600000x1_0
    (select (cmpi .slt (shapeCast _ (extractStridedSlice S1x1600000 ![0, 0] ei slices_S2x1600000_S1x1600000_0_0) shapeCasts_S1x1600000_S1600000) (broadcastInDim S1600000 ![] bcast_S_S1600000 (constantI S_ 32 0#32)))
      (addi (shapeCast _ (extractStridedSlice S1x1600000 ![0, 0] ei slices_S2x1600000_S1x1600000_0_0) shapeCasts_S1x1600000_S1600000) (broadcastInDim S1600000 ![] bcast_S_S1600000 (constantI S_ 32 100000#32)))
      (shapeCast _ (extractStridedSlice S1x1600000 ![0, 0] ei slices_S2x1600000_S1x1600000_0_0) shapeCasts_S1x1600000_S1600000))

def dstIdx (ei : Arr F S2x1600000 .i32) : Arr F S1600000x1 .i32 :=
  broadcastInDim S1600000x1 ![0] bcast_S1600000_S1600000x1_0
    (shapeCast _ (extractStridedSlice S1x1600000 ![1, 0] ei slices_S2x1600000_S1x1600000_1_0) shapeCasts_S1x1600000_S1600000)

def agg64 (h : Arr F S100000x64 .f32) (ei : Arr F S2x1600000 .i32) (ea : Arr F S1600000x2 .f32) (We : Arr F S2x64 .f32) (be : Arr F S64 .f32) : Arr F S100000x64 .f32 :=
  Host.scatterAdd scatter_S100000x64_S1600000x1_S1600000x64_1_0_0_1
    (broadcastInDim S100000x64 ![] bcast_S_S100000x64 (constant S_ .f32 0x00000000#32))
    (dstIdx ei)
    (maximumf
      (addf (addf (Host.gather gather_S100000x64_S1600000x1_S1600000x64_1_0_n_n_0_1_164 h (srcIdx ei))
                  (Host.dotGeneral dot_S1600000x2_S2x64_S1600000x64_1_0_0_1_n_n none ea We))
            (broadcastInDim S1600000x64 ![0, 1] bcast_S1x64_S1600000x64_0_1 (broadcastInDim S1x64 ![1] bcast_S64_S1x64_1 be)))
      (broadcastInDim S1600000x64 ![] bcast_S_S1600000x64 (constant S_ .f32 0x00000000#32)))

def agg128 (h : Arr F S100000x128 .f32) (ei : Arr F S2x1600000 .i32) (ea : Arr F S1600000x2 .f32) (We : Arr F S2x128 .f32) (be : Arr F S128 .f32) : Arr F S100000x128 .f32 :=
  Host.scatterAdd scatter_S100000x128_S1600000x1_S1600000x128_1_0_0_1
    (broadcastInDim S100000x128 ![] bcast_S_S100000x128 (constant S_ .f32 0x00000000#32))
    (dstIdx ei)
    (maximumf
      (addf (addf (Host.gather gather_S100000x128_S1600000x1_S1600000x128_1_0_n_n_0_1_1128 h (srcIdx ei))
                  (Host.dotGeneral dot_S1600000x2_S2x128_S1600000x128_1_0_0_1_n_n none ea We))
            (broadcastInDim S1600000x128 ![0, 1] bcast_S1x128_S1600000x128_0_1 (broadcastInDim S1x128 ![1] bcast_S128_S1x128_1 be)))
      (broadcastInDim S1600000x128 ![] bcast_S_S1600000x128 (constant S_ .f32 0x00000000#32)))

def lin64 (agg h : Arr F S100000x64 .f32) (Wn : Arr F S64x128 .f32) (bn : Arr F S128 .f32) : Arr F S100000x128 .f32 :=
  addf (Host.dotGeneral dot_S100000x64_S64x128_S100000x128_1_0_0_1_n_n none (addf agg h) Wn)
    (broadcastInDim S100000x128 ![0, 1] bcast_S1x128_S100000x128_0_1 (broadcastInDim S1x128 ![1] bcast_S128_S1x128_1 bn))

def lin128 (agg h : Arr F S100000x128 .f32) (Wn : Arr F S128x128 .f32) (bn : Arr F S128 .f32) : Arr F S100000x128 .f32 :=
  addf (Host.dotGeneral dot_S100000x128_S128x128_S100000x128_1_0_0_1_n_n none (addf agg h) Wn)
    (broadcastInDim S100000x128 ![0, 1] bcast_S1x128_S100000x128_0_1 (broadcastInDim S1x128 ![1] bcast_S128_S1x128_1 bn))

def leakyN (y : Arr F S100000x128 .f32) : Arr F S100000x128 .f32 :=
  select (cmpf .oge y (broadcastInDim S100000x128 ![] bcast_S_S100000x128 (constant S_ .f32 0x00000000#32))) y
    (mulf (broadcastInDim S100000x128 ![] bcast_S_S100000x128 (constant S_ .f32 0x3C23D70A#32)) y)

def upd64 (agg h : Arr F S100000x64 .f32) (Wn : Arr F S64x128 .f32) (bn : Arr F S128 .f32) : Arr F S100000x128 .f32 :=
  leakyN (lin64 agg h Wn bn)

def upd128 (agg h : Arr F S100000x128 .f32) (Wn : Arr F S128x128 .f32) (bn : Arr F S128 .f32) : Arr F S100000x128 .f32 :=
  leakyN (lin128 agg h Wn bn)

def pool2 (h : Arr F S100000x128 .f32) (b : Arr F S100000x1 .i32) : Arr F S512x128 .f32 :=
  Host.scatterAdd scatter_S512x128_S100000x1_S100000x128_1_0_0_1
    (broadcastInDim S512x128 ![] bcast_S_S512x128 (constant S_ .f32 0x00000000#32)) b h

def pool (h : Arr F S100000x128 .f32) (batch : Arr F S100000 .i32) : Arr F S512x128 .f32 :=
  pool2 h (broadcastInDim S100000x1 ![0] bcast_S100000_S100000x1_0 batch)

def headLin (p : Arr F S512x128 .f32) (Wh0 : Arr F S128x256 .f32) (bh0 : Arr F S256 .f32) : Arr F S512x256 .f32 :=
  addf (Host.dotGeneral dot_S512x128_S128x256_S512x256_1_0_0_1_n_n none p Wh0)
    (broadcastInDim S512x256 ![0, 1] bcast_S1x256_S512x256_0_1 (broadcastInDim S1x256 ![1] bcast_S256_S1x256_1 bh0))

def leakyH (t : Arr F S512x256 .f32) : Arr F S512x256 .f32 :=
  select (cmpf .oge t (broadcastInDim S512x256 ![] bcast_S_S512x256 (constant S_ .f32 0x00000000#32))) t
    (mulf (broadcastInDim S512x256 ![] bcast_S_S512x256 (constant S_ .f32 0x3C23D70A#32)) t)

def head (p : Arr F S512x128 .f32) (Wh0 : Arr F S128x256 .f32) (bh0 : Arr F S256 .f32) (Wh1 : Arr F S256x32 .f32) (bh1 : Arr F S32 .f32) : Arr F S512x32 .f32 :=
  addf (Host.dotGeneral dot_S512x256_S256x32_S512x32_1_0_0_1_n_n none (leakyH (headLin p Wh0 bh0)) Wh1)
    (broadcastInDim S512x32 ![0, 1] bcast_S1x32_S512x32_0_1 (broadcastInDim S1x32 ![1] bcast_S32_S1x32_1 bh1))

section Net
variable (x0 : Arr F S100000x64 .f32) (x1 : Arr F S2x1600000 .i32) (x2 : Arr F S1600000x2 .f32) (x3 : Arr F S100000 .i32)
  (x4 : Arr F S2x64 .f32) (x5 : Arr F S64 .f32) (x6 : Arr F S64x128 .f32) (x7 : Arr F S128 .f32)
  (x8 : Arr F S2x128 .f32) (x9 : Arr F S128 .f32) (x10 : Arr F S128x128 .f32) (x11 : Arr F S128 .f32)
  (x12 : Arr F S2x128 .f32) (x13 : Arr F S128 .f32) (x14 : Arr F S128x128 .f32) (x15 : Arr F S128 .f32)
  (x16 : Arr F S128x256 .f32) (x17 : Arr F S256 .f32) (x18 : Arr F S256x32 .f32) (x19 : Arr F S32 .f32)

def h1 := upd64 (agg64 x0 x1 x2 x4 x5) x0 x6 x7
def h2 := upd128 (agg128 (h1 x0 x1 x2 x4 x5 x6 x7) x1 x2 x8 x9) (h1 x0 x1 x2 x4 x5 x6 x7) x10 x11
def h3 := upd128 (agg128 (h2 x0 x1 x2 x4 x5 x6 x7 x8 x9 x10 x11) x1 x2 x12 x13) (h2 x0 x1 x2 x4 x5 x6 x7 x8 x9 x10 x11) x14 x15
def net := head (pool (h3 x0 x1 x2 x4 x5 x6 x7 x8 x9 x10 x11 x12 x13 x14 x15) x3) x16 x17 x18 x19

end Net

end Cert.Spec

end
-- ==== Proof.KI.ValUpd0.lean ====
import proofs.«419434_j67937792688559_2_alg».proof.Proof.KI.Reg0
import proofs.«419434_j67937792688559_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)

open Idealize.ShloMosaic.ValueIdx

private def leakyAt (y : EReal) : EReal :=
  Scalar.select (FloatOps.cmpf (F := Ideal) (φ := .f32) .oge y (FloatOps.ofBits (F := Ideal) .f32 0x00000000#32)) y
    (FloatOps.mulf (F := Ideal) (φ := .f32) (FloatOps.ofBits (F := Ideal) .f32 0x3C23D70A#32) y)

private theorem blkdot_apply (a : FVec Ideal S5000x64 .bf16) (b : FVec Ideal S64x128 .bf16) (r : Fin 5000) (j : Fin 128) :
    matmul dot_S5000x64_S64x128_S5000x128_1_0_0_1_n_n none a b (constant (F := Ideal) S5000x128 .f32 0x00000000#32) (ix2 r j)
      = ∑ k : Fin 64, a (ix2 r k) * b (ix2 k j) := by
  simp only [matmul]
  rw [Ideal.matmul_constant_zero_apply, ← Equiv.sum_comp (ValueIdx.contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  congr 2 <;> funext a <;> apply Fin.ext <;> match a with
    | ⟨0, _⟩ => first | rfl | exact hk
    | ⟨1, _⟩ => first | rfl | exact hk

private theorem pay_apply (x0 x1 : Vec Ideal S5000x64 .f32) (x2 : Vec Ideal S64x128 .f32) (x3 : Vec Ideal S128 .f32) (r : Fin 5000) (j : Fin 128) :
    k0_pay1 (F := Ideal) x0 x1 x2 x3 (ix2 r j)
      = leakyAt ((∑ k : Fin 64, (x0 (ix2 r k) + x1 (ix2 r k)) * x2 (ix2 k j)) + x3 (ix1 j)) := by
  unfold k0_pay1
  simp only [select_apply, cmpf_apply, mulf_apply, addf_apply, broadcast_apply]
  rw [blkdot_apply, broadcastTo_1b_ab_apply, shapeCast_a_1a_apply, shapeCast_self]
  rfl

private theorem refdot_apply (a : FVec Ideal S100000x64 .f32) (b : FVec Ideal S64x128 .f32) (n : Fin 100000) (j : Fin 128) :
    Host.dotGeneral Cert.ReferenceIdeal.dot_S100000x64_S64x128_S100000x128_1_0_0_1_n_n none a b (ix2 n j)
      = ∑ k : Fin 64, a (ix2 n k) * b (ix2 k j) := by
  simp only [Host.dotGeneral]
  rw [Ideal.dotGeneral_apply, ← Equiv.sum_comp (ValueIdx.contrEquiv1 Cert.ReferenceIdeal.dot_S100000x64_S64x128_S100000x128_1_0_0_1_n_n 64 rfl rfl).symm]
  refine Finset.sum_congr rfl fun k _ => ?_
  have hk := contrEquiv1_symm_val Cert.ReferenceIdeal.dot_S100000x64_S64x128_S100000x128_1_0_0_1_n_n 64 rfl rfl k
  congr 2 <;> funext a <;> apply Fin.ext <;> match a with
    | ⟨0, _⟩ => first | rfl | exact hk
    | ⟨1, _⟩ => first | rfl | exact hk

private theorem refbias_apply (bn : Vec Ideal S128 .f32) (n : Fin 100000) (j : Fin 128) :
    broadcastInDim Cert.ReferenceIdeal.S100000x128 ![0, 1] Cert.ReferenceIdeal.Gen.bcast_S1x128_S100000x128_0_1
        (broadcastInDim Cert.ReferenceIdeal.S1x128 ![1] Cert.ReferenceIdeal.Gen.bcast_S128_S1x128_1 bn) (ix2 n j) = bn (ix1 j) := by
  rw [broadcastInDim_apply _ Cert.ReferenceIdeal.Gen.bcast_S1x128_S100000x128_0_1 _ (ix2 n j) (ix2 (0 : Fin 1) j) (fun ax => match ax with
    | ⟨0, _⟩ => by show 0 = if (1 : Nat) = 1 then 0 else n.val; rw [if_pos rfl]
    | ⟨1, _⟩ => by show j.val = if (128 : Nat) = 1 then 0 else j.val; rw [if_neg (by decide)])]
  exact broadcastInDim_apply _ Cert.ReferenceIdeal.Gen.bcast_S128_S1x128_1 bn (ix2 (0 : Fin 1) j) (ix1 j) (fun ax => match ax with
    | ⟨0, _⟩ => by show j.val = if (128 : Nat) = 1 then 0 else j.val; rw [if_neg (by decide)])

private theorem refsplat_apply (w : BitVec 32) (i : Cert.ReferenceIdeal.S100000x128.Idx) :
    broadcastInDim Cert.ReferenceIdeal.S100000x128 ![] Cert.ReferenceIdeal.Gen.bcast_S_S100000x128 (constant (F := Ideal) Cert.ReferenceIdeal.S_ .f32 w) i
      = FloatOps.ofBits (F := Ideal) .f32 w :=
  broadcastInDim_apply _ Cert.ReferenceIdeal.Gen.bcast_S_S100000x128 _ i (fun ax => ax.elim0) (fun ax => ax.elim0)

private theorem upd64_apply (agg h : Vec Ideal S100000x64 .f32) (Wn : Vec Ideal S64x128 .f32) (bn : Vec Ideal S128 .f32) (n : Fin 100000) (j : Fin 128) :
    Cert.Spec.upd64 (F := Ideal) agg h Wn bn (ix2 n j)
      = leakyAt ((∑ k : Fin 64, (agg (ix2 n k) + h (ix2 n k)) * Wn (ix2 k j)) + bn (ix1 j)) := by
  unfold Cert.Spec.upd64 Cert.Spec.leakyN Cert.Spec.lin64
  simp only [select_apply, cmpf_apply, mulf_apply, addf_apply]
  rw [refdot_apply, refbias_apply, refsplat_apply, refsplat_apply]
  rfl

variable (V : (c : Dev nD) → (b : Ref sig .tc) → Buf (Elt Ideal) ((c : Thread nD τ).loc b))

private def rowOf (t : Fin cfg0.N) (r : Fin 5000) : Fin 100000 :=
  ⟨t.val * 5000 + r.val, by have h1 := t.isLt; have hN : cfg0.N = 20 := N_0; have h2 := r.isLt; omega⟩

private theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

private theorem iblk0_0_apply (c : Dev nD) (t : Fin cfg0.N) (r : Fin 5000) (k : Fin 64) :
    (iblk0 (F := Ideal) V c 0 t : Vec Ideal S5000x64 .f32) (ix2 r k) = (V c main_v21 : Vec Ideal S100000x64 .f32) (ix2 (rowOf t r) k) := by
  obtain ⟨e0, e1, -⟩ := idx_facts0 t
  unfold iblk0
  rw [View.read_apply]
  show V c main_v21 _ = V c main_v21 _
  congr 1
  funext a
  apply Fin.ext
  match a with
  | ⟨0, _⟩ => show win0_0.index t (0 : Fin 2) * 5000 + 1 * r.val = t.val * 5000 + r.val; rw [e0]; omega
  | ⟨1, _⟩ => show win0_0.index t (1 : Fin 2) * 64 + 1 * k.val = k.val; rw [e1]; omega

private theorem iblk0_1_apply (c : Dev nD) (t : Fin cfg0.N) (r : Fin 5000) (k : Fin 64) :
    (iblk0 (F := Ideal) V c 1 t : Vec Ideal S5000x64 .f32) (ix2 r k) = (V c main_arg0 : Vec Ideal S100000x64 .f32) (ix2 (rowOf t r) k) := by
  obtain ⟨-, -, e0, e1, -⟩ := idx_facts0 t
  unfold iblk0
  rw [View.read_apply]
  show V c main_arg0 _ = V c main_arg0 _
  congr 1
  funext a
  apply Fin.ext
  match a with
  | ⟨0, _⟩ => show win0_1.index t (0 : Fin 2) * 5000 + 1 * r.val = t.val * 5000 + r.val; rw [e0]; omega
  | ⟨1, _⟩ => show win0_1.index t (1 : Fin 2) * 64 + 1 * k.val = k.val; rw [e1]; omega

private theorem iblk0_2_apply (c : Dev nD) (t : Fin cfg0.N) (k : Fin 64) (j : Fin 128) :
    (iblk0 (F := Ideal) V c 2 t : Vec Ideal S64x128 .f32) (ix2 k j) = (V c main_arg6 : Vec Ideal S64x128 .f32) (ix2 k j) := by
  obtain ⟨-, -, -, -, e0, e1, -⟩ := idx_facts0 t
  unfold iblk0
  rw [View.read_apply]
  show V c main_arg6 _ = V c main_arg6 _
  congr 1
  funext a
  apply Fin.ext
  match a with
  | ⟨0, _⟩ => show win0_2.index t (0 : Fin 2) * 64 + 1 * k.val = k.val; rw [e0]; omega
  | ⟨1, _⟩ => show win0_2.index t (1 : Fin 2) * 128 + 1 * j.val = j.val; rw [e1]; omega

private theorem iblk0_3_apply (c : Dev nD) (t : Fin cfg0.N) (j : Fin 128) :
    (iblk0 (F := Ideal) V c 3 t : Vec Ideal S128 .f32) (ix1 j) = (V c main_arg7 : Vec Ideal S128 .f32) (ix1 j) := by
  obtain ⟨-, -, -, -, -, -, e0, -⟩ := idx_facts0 t
  unfold iblk0
  rw [View.read_apply]
  show V c main_arg7 _ = V c main_arg7 _
  congr 1
  funext a
  apply Fin.ext
  match a with
  | ⟨0, _⟩ => show win0_3.index t (0 : Fin 1) * 128 + 1 * j.val = j.val; rw [e0]; omega

private theorem oblk0_emb (t : Fin cfg0.N) (r : Fin 5000) (j : Fin 128) :
    ((cfg0.win 4).blk t).view.emb (ix2 r j) = (ix2 (rowOf t r) j : S100000x128.Idx) := by
  obtain ⟨-, -, -, -, -, -, -, e0, e1⟩ := idx_facts0 t
  funext a
  apply Fin.ext
  match a with
  | ⟨0, _⟩ => show win0_4.index t (0 : Fin 2) * 5000 + 1 * r.val = t.val * 5000 + r.val; rw [e0]; omega
  | ⟨1, _⟩ => show win0_4.index t (1 : Fin 2) * 128 + 1 * j.val = j.val; rw [e1]; omega

private theorem blk_update (agg h : Vec Ideal S100000x64 .f32) (Wn : Vec Ideal S64x128 .f32) (bn : Vec Ideal S128 .f32)
    (x0 x1 : Vec Ideal S5000x64 .f32) (x2 : Vec Ideal S64x128 .f32) (x3 : Vec Ideal S128 .f32)
    (e : S5000x128.Idx → S100000x128.Idx) (row : Fin 5000 → Fin 100000)
    (h0 : ∀ (r : Fin 5000) (k : Fin 64), x0 (ix2 r k) = agg (ix2 (row r) k))
    (h1 : ∀ (r : Fin 5000) (k : Fin 64), x1 (ix2 r k) = h (ix2 (row r) k))
    (h2 : ∀ (k : Fin 64) (j : Fin 128), x2 (ix2 k j) = Wn (ix2 k j))
    (h3 : ∀ j : Fin 128, x3 (ix1 j) = bn (ix1 j))
    (he : ∀ (r : Fin 5000) (j : Fin 128), e (ix2 r j) = ix2 (row r) j) :
    k0_pay1 (F := Ideal) x0 x1 x2 x3 = fun y => Cert.Spec.upd64 (F := Ideal) agg h Wn bn (e y) := by
  funext y
  obtain ⟨r, j, rfl⟩ : ∃ (r : Fin 5000) (j : Fin 128), y = ix2 r j := ⟨y 0, y 1, eq_ix2 y⟩
  rw [pay_apply, he, upd64_apply]
  simp only [h0, h1, h2, h3]

private theorem flushed_eq0 (c : Dev nD) (t : Fin cfg0.N) :
    (dat0 (F := Ideal) V c).flushed 4 t
      = ((cfg0.win 4).blk t).view.read (Elt Ideal) (Cert.Spec.upd64 (F := Ideal) (V c main_v21) (V c main_arg0) (V c main_arg6) (V c main_arg7)) := by
  show (cfg0.win 4).cut (grid0.coords t) ((dat0 (F := Ideal) V c).after 4 t) = _
  rw [after0_out]
  exact blk_update (V c main_v21) (V c main_arg0) (V c main_arg6) (V c main_arg7)
    (iblk0 (F := Ideal) V c 0 t) (iblk0 (F := Ideal) V c 1 t) (iblk0 (F := Ideal) V c 2 t) (iblk0 (F := Ideal) V c 3 t)
    (((cfg0.win 4).blk t).view.emb) (rowOf t)
    (iblk0_0_apply V c t) (iblk0_1_apply V c t) (iblk0_2_apply V c t) (iblk0_3_apply V c t) (oblk0_emb t)

private theorem mem_oblk0 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v22).slice (win0_4.rect t)).set ↔ _
  rw [View.set_slice_whole, Rect.mem_set_unit]
  exact Iff.rfl

private theorem cover0 (i : S100000x128.Idx) : ∃ t : Fin cfg0.N, (cfg0.win 4).flush t = true ∧ i ∈ ((cfg0.win 4).blk t).view.set := by
  have hN : cfg0.N = 20 := N_0
  have hi0 : (i 0).val < 100000 := (i 0).isLt
  have hi1 : (i 1).val < 128 := (i 1).isLt
  obtain ⟨t, ht⟩ : ∃ t : Fin cfg0.N, t.val = (i 0).val / 5000 := ⟨⟨(i 0).val / 5000, by omega⟩, rfl⟩
  obtain ⟨-, -, -, -, -, -, -, e0, e1⟩ := idx_facts0 t
  refine ⟨t, flush0_4 t, ?_⟩
  rw [mem_oblk0]
  intro a
  match a with
  | ⟨0, _⟩ => show win0_4.index t (0 : Fin 2) * 5000 ≤ (i 0).val ∧ (i 0).val < win0_4.index t (0 : Fin 2) * 5000 + 5000; rw [e0, ht]; omega
  | ⟨1, _⟩ => show win0_4.index t (1 : Fin 2) * 128 ≤ (i 1).val ∧ (i 1).val < win0_4.index t (1 : Fin 2) * 128 + 128; rw [e1]; omega

theorem final0 (c : Dev nD) :
    (dat0 (F := Ideal) V c).arrAt 4 cfg0.N = Cert.Spec.upd64 (F := Ideal) (V c main_v21) (V c main_arg0) (V c main_arg6) (V c main_arg7) :=
  (dat0 (F := Ideal) V c).arrAt_eq_of_cover 4 _ (fun t _ => flushed_eq0 V c t) cover0

end Cert.KernelIdeal.Hand

end
-- ==== Proof.KI.ValUpd1.lean ====
import proofs.«419434_j67937792688559_2_alg».proof.Proof.KI.Reg1
import proofs.«419434_j67937792688559_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)
open Idealize.ShloMosaic.ValueIdx

namespace Upd1

def leak (y : EReal) : EReal :=
  Scalar.select (FloatOps.cmpf (F := Ideal) (φ := .f32) .oge y (Ideal.ofBits .f32 0x00000000#32)) y (Ideal.ofBits .f32 0x3C23D70A#32 * y)

theorem tileDot_apply (a : FVec Ideal S5000x128 .bf16) (w : FVec Ideal S128x128 .bf16) (r : Fin 5000) (j : Fin 128) :
    FloatOps.matmul dot_S5000x128_S128x128_S5000x128_1_0_0_1_n_n none a w (constant (F := Ideal) S5000x128 .f32 0x00000000#32) (ix2 r j)
      = ∑ k : Fin 128, a (ix2 r k) * w (ix2 k j) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  congr 2 <;> funext a <;> apply Fin.ext <;> match a with
    | ⟨0, _⟩ => first | rfl | exact hk
    | ⟨1, _⟩ => first | rfl | exact hk

def tileLin (x0 x1 : Vec Ideal S5000x128 .f32) (x2 : Vec Ideal S128x128 .f32) (x3 : Vec Ideal S128 .f32) : FVec Ideal S5000x128 .f32 :=
  addf (matmul dot_S5000x128_S128x128_S5000x128_1_0_0_1_n_n none
          (truncf .bf16 (addf (shapeCast S5000x128 x0 shapeCasts_S5000x128_S5000x128) (shapeCast S5000x128 x1 shapeCasts_S5000x128_S5000x128)) bitsLt_bf16_f32)
          (truncf .bf16 x2 bitsLt_bf16_f32) (constant (F := Ideal) S5000x128 .f32 0x00000000#32))
    (broadcastTo S5000x128 (shapeCast S1x128 x3 shapeCasts_S128_S1x128) broadcasts_S1x128_S5000x128)

theorem tileLin_apply (x0 x1 : Vec Ideal S5000x128 .f32) (x2 : Vec Ideal S128x128 .f32) (x3 : Vec Ideal S128 .f32) (r : Fin 5000) (j : Fin 128) :
    tileLin x0 x1 x2 x3 (ix2 r j) = (∑ k : Fin 128, (x0 (ix2 r k) + x1 (ix2 r k)) * x2 (ix2 k j)) + x3 (ix1 j) := by
  unfold tileLin
  rw [addf_apply, broadcastTo_1b_ab_apply, shapeCast_a_1a_apply]
  refine congrArg (· + x3 (ix1 j)) ?_
  refine (tileDot_apply _ _ r j).trans ?_
  refine Finset.sum_congr rfl fun k _ => ?_
  rw [shapeCast_self, shapeCast_self]
  rfl

theorem pay_eq (x0 x1 : Vec Ideal S5000x128 .f32) (x2 : Vec Ideal S128x128 .f32) (x3 : Vec Ideal S128 .f32) :
    k1_pay1 (F := Ideal) x0 x1 x2 x3 = fun i => leak (tileLin x0 x1 x2 x3 i) := rfl

theorem pay_apply (x0 x1 : Vec Ideal S5000x128 .f32) (x2 : Vec Ideal S128x128 .f32) (x3 : Vec Ideal S128 .f32) (r : Fin 5000) (j : Fin 128) :
    k1_pay1 (F := Ideal) x0 x1 x2 x3 (ix2 r j) = leak ((∑ k : Fin 128, (x0 (ix2 r k) + x1 (ix2 r k)) * x2 (ix2 k j)) + x3 (ix1 j)) :=
  (congrFun (pay_eq x0 x1 x2 x3) (ix2 r j)).trans (congrArg leak (tileLin_apply x0 x1 x2 x3 r j))

theorem refDot_apply (y : FVec Ideal Cert.ReferenceIdeal.S100000x128 .f32) (W : FVec Ideal Cert.ReferenceIdeal.S128x128 .f32) (n : Fin 100000) (j : Fin 128) :
    Host.dotGeneral (F := Ideal) Cert.ReferenceIdeal.dot_S100000x128_S128x128_S100000x128_1_0_0_1_n_n none y W (ix2 n j)
      = ∑ k : Fin 128, y (ix2 n k) * W (ix2 k j) := by
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  congr 2 <;> funext a <;> apply Fin.ext <;> match a with
    | ⟨0, _⟩ => first | rfl | exact hk
    | ⟨1, _⟩ => first | rfl | exact hk

theorem splatN_apply (b : BitVec 32) (i : Cert.ReferenceIdeal.S100000x128.Idx) :
    broadcastInDim Cert.ReferenceIdeal.S100000x128 ![] Cert.ReferenceIdeal.Gen.bcast_S_S100000x128 (constant (F := Ideal) Cert.ReferenceIdeal.S_ .f32 b) i = Ideal.ofBits .f32 b :=
  broadcastInDim_apply _ Cert.ReferenceIdeal.Gen.bcast_S_S100000x128 _ i ix0 (fun a => a.elim0)

theorem biasN_apply (bn : FVec Ideal Cert.ReferenceIdeal.S128 .f32) (n : Fin 100000) (j : Fin 128) :
    broadcastInDim Cert.ReferenceIdeal.S100000x128 ![0, 1] Cert.ReferenceIdeal.Gen.bcast_S1x128_S100000x128_0_1
      (broadcastInDim Cert.ReferenceIdeal.S1x128 ![1] Cert.ReferenceIdeal.Gen.bcast_S128_S1x128_1 bn) (ix2 n j) = bn (ix1 j) := by
  refine (broadcastInDim_apply _ Cert.ReferenceIdeal.Gen.bcast_S1x128_S100000x128_0_1 _ (ix2 n j) (ix2 (0 : Fin 1) j) (fun a => match a with
    | ⟨0, _⟩ => by show 0 = if (1 : Nat) = 1 then 0 else n.val; rw [if_pos rfl]
    | ⟨1, _⟩ => by show j.val = if (128 : Nat) = 1 then 0 else j.val; rw [if_neg (by decide)])).trans ?_
  exact broadcastInDim_apply _ Cert.ReferenceIdeal.Gen.bcast_S128_S1x128_1 bn (ix2 (0 : Fin 1) j) (ix1 j) (fun a => match a with
    | ⟨0, _⟩ => by show j.val = if (128 : Nat) = 1 then 0 else j.val; rw [if_neg (by decide)])

theorem lin128_apply (agg h : FVec Ideal Cert.ReferenceIdeal.S100000x128 .f32) (Wn : FVec Ideal Cert.ReferenceIdeal.S128x128 .f32) (bn : FVec Ideal Cert.ReferenceIdeal.S128 .f32) (n : Fin 100000) (j : Fin 128) :
    Cert.Spec.lin128 (F := Ideal) agg h Wn bn (ix2 n j) = (∑ k : Fin 128, (agg (ix2 n k) + h (ix2 n k)) * Wn (ix2 k j)) + bn (ix1 j) := by
  unfold Cert.Spec.lin128
  rw [addf_apply, biasN_apply, refDot_apply]
  rfl

theorem upd128_eq (agg h : FVec Ideal Cert.ReferenceIdeal.S100000x128 .f32) (Wn : FVec Ideal Cert.ReferenceIdeal.S128x128 .f32) (bn : FVec Ideal Cert.ReferenceIdeal.S128 .f32) (i : Cert.ReferenceIdeal.S100000x128.Idx) :
    Cert.Spec.upd128 (F := Ideal) agg h Wn bn i = leak (Cert.Spec.lin128 (F := Ideal) agg h Wn bn i) := by
  unfold Cert.Spec.upd128 Cert.Spec.leakyN
  rw [select_apply, cmpf_apply, mulf_apply, splatN_apply, splatN_apply]
  rfl

theorem upd128_apply (agg h : FVec Ideal Cert.ReferenceIdeal.S100000x128 .f32) (Wn : FVec Ideal Cert.ReferenceIdeal.S128x128 .f32) (bn : FVec Ideal Cert.ReferenceIdeal.S128 .f32) (n : Fin 100000) (j : Fin 128) :
    Cert.Spec.upd128 (F := Ideal) agg h Wn bn (ix2 n j) = leak ((∑ k : Fin 128, (agg (ix2 n k) + h (ix2 n k)) * Wn (ix2 k j)) + bn (ix1 j)) := by
  rw [upd128_eq, lin128_apply]

theorem pay_block (x0 x1 : Vec Ideal S5000x128 .f32) (x2 : Vec Ideal S128x128 .f32) (x3 : Vec Ideal S128 .f32)
    (agg h : FVec Ideal Cert.ReferenceIdeal.S100000x128 .f32) (Wn : FVec Ideal Cert.ReferenceIdeal.S128x128 .f32) (bn : FVec Ideal Cert.ReferenceIdeal.S128 .f32)
    (r : Fin 5000) (j : Fin 128) (n : Fin 100000)
    (h0 : ∀ k : Fin 128, x0 (ix2 r k) = agg (ix2 n k)) (h1 : ∀ k : Fin 128, x1 (ix2 r k) = h (ix2 n k))
    (h2 : ∀ k : Fin 128, x2 (ix2 k j) = Wn (ix2 k j)) (h3 : x3 (ix1 j) = bn (ix1 j)) :
    k1_pay1 (F := Ideal) x0 x1 x2 x3 (ix2 r j) = Cert.Spec.upd128 (F := Ideal) agg h Wn bn (ix2 n j) := by
  rw [pay_apply, upd128_apply, h3]
  refine congrArg (fun s => leak (s + bn (ix1 j))) (Finset.sum_congr rfl fun k _ => ?_)
  rw [h0, h1, h2]

theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

theorem blk0_read (c : Dev nD) (t : Fin cfg1.N) (r : Fin 5000) (k : Fin 128) (n : Fin 100000) (hn : n.val = 5000 * t.val + r.val) :
    (iblk1 (F := Ideal) V c 0 t : Vec Ideal S5000x128 .f32) (ix2 r k) = (V c main_v40 : FVec Ideal Cert.ReferenceIdeal.S100000x128 .f32) (ix2 n k) := by
  obtain ⟨e0, e1, -⟩ := idx_facts t
  show V c main_v40 (((cfg1.win 0).blk t).view.emb (ix2 r k)) = V c main_v40 (ix2 n k)
  refine congrArg (V c main_v40) (funext fun a => Fin.ext ?_)
  match a with
  | ⟨0, _⟩ => show win1_0.index t (0 : Fin 2) * 5000 + 1 * r.val = n.val; rw [e0, hn]; omega
  | ⟨1, _⟩ => show win1_0.index t (1 : Fin 2) * 128 + 1 * k.val = k.val; rw [e1]; omega

theorem blk1_read (c : Dev nD) (t : Fin cfg1.N) (r : Fin 5000) (k : Fin 128) (n : Fin 100000) (hn : n.val = 5000 * t.val + r.val) :
    (iblk1 (F := Ideal) V c 1 t : Vec Ideal S5000x128 .f32) (ix2 r k) = (V c main_v22 : FVec Ideal Cert.ReferenceIdeal.S100000x128 .f32) (ix2 n k) := by
  obtain ⟨-, -, e0, e1, -⟩ := idx_facts t
  show V c main_v22 (((cfg1.win 1).blk t).view.emb (ix2 r k)) = V c main_v22 (ix2 n k)
  refine congrArg (V c main_v22) (funext fun a => Fin.ext ?_)
  match a with
  | ⟨0, _⟩ => show win1_1.index t (0 : Fin 2) * 5000 + 1 * r.val = n.val; rw [e0, hn]; omega
  | ⟨1, _⟩ => show win1_1.index t (1 : Fin 2) * 128 + 1 * k.val = k.val; rw [e1]; omega

theorem blk2_read (c : Dev nD) (t : Fin cfg1.N) (k j : Fin 128) :
    (iblk1 (F := Ideal) V c 2 t : Vec Ideal S128x128 .f32) (ix2 k j) = (V c main_arg10 : FVec Ideal Cert.ReferenceIdeal.S128x128 .f32) (ix2 k j) := by
  obtain ⟨-, -, -, -, e0, e1, -⟩ := idx_facts t
  show V c main_arg10 (((cfg1.win 2).blk t).view.emb (ix2 k j)) = V c main_arg10 (ix2 k j)
  refine congrArg (V c main_arg10) (funext fun a => Fin.ext ?_)
  match a with
  | ⟨0, _⟩ => show win1_2.index t (0 : Fin 2) * 128 + 1 * k.val = k.val; rw [e0]; omega
  | ⟨1, _⟩ => show win1_2.index t (1 : Fin 2) * 128 + 1 * j.val = j.val; rw [e1]; omega

theorem blk3_read (c : Dev nD) (t : Fin cfg1.N) (j : Fin 128) :
    (iblk1 (F := Ideal) V c 3 t : Vec Ideal S128 .f32) (ix1 j) = (V c main_arg11 : FVec Ideal Cert.ReferenceIdeal.S128 .f32) (ix1 j) := by
  obtain ⟨-, -, -, -, -, -, e0, -⟩ := idx_facts t
  show V c main_arg11 (((cfg1.win 3).blk t).view.emb (ix1 j)) = V c main_arg11 (ix1 j)
  refine congrArg (V c main_arg11) (funext fun a => Fin.ext ?_)
  match a with
  | ⟨0, _⟩ => show win1_3.index t (0 : Fin 1) * 128 + 1 * j.val = j.val; rw [e0]; omega

theorem flushed_eq (c : Dev nD) (t : Fin cfg1.N) :
    (dat1 (F := Ideal) V c).flushed 4 t = ((cfg1.win 4).blk t).view.read (Elt Ideal)
      (Cert.Spec.upd128 (F := Ideal) (V c main_v40) (V c main_v22) (V c main_arg10) (V c main_arg11)) := by
  show (cfg1.win 4).cut (grid1.coords t) ((dat1 (F := Ideal) V c).after 4 t) = _
  rw [after1_out]
  funext y
  obtain ⟨r, j, rfl⟩ : ∃ (r : Fin 5000) (j : Fin 128), y = ix2 r j := ⟨y 0, y 1, eq_ix2 y⟩
  obtain ⟨-, -, -, -, -, -, -, e0, e1⟩ := idx_facts t
  have ht : t.val < 20 := t.isLt
  have hr : r.val < 5000 := r.isLt
  have hemb : ((cfg1.win 4).blk t).view.emb (ix2 r j) = ix2 (⟨5000 * t.val + r.val, by omega⟩ : Fin 100000) j := by
    funext a; apply Fin.ext
    match a with
    | ⟨0, _⟩ => show win1_4.index t (0 : Fin 2) * 5000 + 1 * r.val = 5000 * t.val + r.val; rw [e0]; omega
    | ⟨1, _⟩ => show win1_4.index t (1 : Fin 2) * 128 + 1 * j.val = j.val; rw [e1]; omega
  show k1_pay1 (F := Ideal) (iblk1 V c 0 t) (iblk1 V c 1 t) (iblk1 V c 2 t) (iblk1 V c 3 t) (ix2 r j)
    = Cert.Spec.upd128 (F := Ideal) (V c main_v40) (V c main_v22) (V c main_arg10) (V c main_arg11) (((cfg1.win 4).blk t).view.emb (ix2 r j))
  rw [hemb]
  exact pay_block (iblk1 V c 0 t) (iblk1 V c 1 t) (iblk1 V c 2 t) (iblk1 V c 3 t) (V c main_v40) (V c main_v22) (V c main_arg10) (V c main_arg11)
    r j ⟨5000 * t.val + r.val, by omega⟩
    (fun k => blk0_read V c t r k _ rfl) (fun k => blk1_read V c t r k _ rfl) (fun k => blk2_read V c t k j) (blk3_read V c t j)

theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v41).slice (win1_4.rect t)).set ↔ _
  rw [View.set_slice_whole, Rect.mem_set_unit]
  exact Iff.rfl

theorem cover (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hq : (i 0).val / 5000 < 20 := by omega
  refine ⟨⟨(i 0).val / 5000, hq⟩, flush1_4 _, ?_⟩
  rw [mem_blk]
  obtain ⟨-, -, -, -, -, -, -, e0, e1⟩ := idx_facts ⟨(i 0).val / 5000, hq⟩
  have e0' : win1_4.index ⟨(i 0).val / 5000, hq⟩ (0 : Fin 2) = (i 0).val / 5000 := e0
  intro a
  match a with
  | ⟨0, _⟩ =>
    show win1_4.index ⟨(i 0).val / 5000, hq⟩ (0 : Fin 2) * 5000 ≤ (i 0).val ∧ (i 0).val < win1_4.index ⟨(i 0).val / 5000, hq⟩ (0 : Fin 2) * 5000 + 5000
    rw [e0']; omega
  | ⟨1, _⟩ =>
    show win1_4.index ⟨(i 0).val / 5000, hq⟩ (1 : Fin 2) * 128 ≤ (i 1).val ∧ (i 1).val < win1_4.index ⟨(i 0).val / 5000, hq⟩ (1 : Fin 2) * 128 + 128
    rw [e1]; omega

end Upd1

variable (V : (c : Dev nD) → (b : Ref sig .tc) → Buf (Elt Ideal) ((c : Thread nD τ).loc b))

theorem final1 (c : Dev nD) :
    (dat1 (F := Ideal) V c).arrAt 4 cfg1.N = Cert.Spec.upd128 (F := Ideal) (V c main_v40) (V c main_v22) (V c main_arg10) (V c main_arg11) :=
  (dat1 (F := Ideal) V c).arrAt_eq_of_cover 4 _ (fun t _ => Upd1.flushed_eq V c t) Upd1.cover

end Cert.KernelIdeal.Hand

end
-- ==== Proof.KI.ValUpd2.lean ====
import proofs.«419434_j67937792688559_2_alg».proof.Proof.KI.Reg2
import proofs.«419434_j67937792688559_2_alg».proof.Proof.KI.ValUpd1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)
open Idealize.ShloMosaic.ValueIdx

namespace Upd2

theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = t.val ∧ win2_4.index t (1 : Fin 2) = 0 :=
  (by decide +kernel : ∀ t : Fin grid2.N, _)

variable (V : (c : Dev nD) → (b : Ref sig .tc) → Buf (Elt Ideal) ((c : Thread nD τ).loc b))

theorem blk0_read (c : Dev nD) (t : Fin cfg2.N) (r : Fin 5000) (k : Fin 128) (n : Fin 100000) (hn : n.val = 5000 * t.val + r.val) :
    (iblk2 (F := Ideal) V c 0 t : Vec Ideal S5000x128 .f32) (ix2 r k) = (V c main_v59 : FVec Ideal Cert.ReferenceIdeal.S100000x128 .f32) (ix2 n k) := by
  obtain ⟨e0, e1, -⟩ := idx_facts t
  show V c main_v59 (((cfg2.win 0).blk t).view.emb (ix2 r k)) = V c main_v59 (ix2 n k)
  refine congrArg (V c main_v59) (funext fun a => Fin.ext ?_)
  match a with
  | ⟨0, _⟩ => show win2_0.index t (0 : Fin 2) * 5000 + 1 * r.val = n.val; rw [e0, hn]; omega
  | ⟨1, _⟩ => show win2_0.index t (1 : Fin 2) * 128 + 1 * k.val = k.val; rw [e1]; omega

theorem blk1_read (c : Dev nD) (t : Fin cfg2.N) (r : Fin 5000) (k : Fin 128) (n : Fin 100000) (hn : n.val = 5000 * t.val + r.val) :
    (iblk2 (F := Ideal) V c 1 t : Vec Ideal S5000x128 .f32) (ix2 r k) = (V c main_v41 : FVec Ideal Cert.ReferenceIdeal.S100000x128 .f32) (ix2 n k) := by
  obtain ⟨-, -, e0, e1, -⟩ := idx_facts t
  show V c main_v41 (((cfg2.win 1).blk t).view.emb (ix2 r k)) = V c main_v41 (ix2 n k)
  refine congrArg (V c main_v41) (funext fun a => Fin.ext ?_)
  match a with
  | ⟨0, _⟩ => show win2_1.index t (0 : Fin 2) * 5000 + 1 * r.val = n.val; rw [e0, hn]; omega
  | ⟨1, _⟩ => show win2_1.index t (1 : Fin 2) * 128 + 1 * k.val = k.val; rw [e1]; omega

theorem blk2_read (c : Dev nD) (t : Fin cfg2.N) (k j : Fin 128) :
    (iblk2 (F := Ideal) V c 2 t : Vec Ideal S128x128 .f32) (ix2 k j) = (V c main_arg14 : FVec Ideal Cert.ReferenceIdeal.S128x128 .f32) (ix2 k j) := by
  obtain ⟨-, -, -, -, e0, e1, -⟩ := idx_facts t
  show V c main_arg14 (((cfg2.win 2).blk t).view.emb (ix2 k j)) = V c main_arg14 (ix2 k j)
  refine congrArg (V c main_arg14) (funext fun a => Fin.ext ?_)
  match a with
  | ⟨0, _⟩ => show win2_2.index t (0 : Fin 2) * 128 + 1 * k.val = k.val; rw [e0]; omega
  | ⟨1, _⟩ => show win2_2.index t (1 : Fin 2) * 128 + 1 * j.val = j.val; rw [e1]; omega

theorem blk3_read (c : Dev nD) (t : Fin cfg2.N) (j : Fin 128) :
    (iblk2 (F := Ideal) V c 3 t : Vec Ideal S128 .f32) (ix1 j) = (V c main_arg15 : FVec Ideal Cert.ReferenceIdeal.S128 .f32) (ix1 j) := by
  obtain ⟨-, -, -, -, -, -, e0, -⟩ := idx_facts t
  show V c main_arg15 (((cfg2.win 3).blk t).view.emb (ix1 j)) = V c main_arg15 (ix1 j)
  refine congrArg (V c main_arg15) (funext fun a => Fin.ext ?_)
  match a with
  | ⟨0, _⟩ => show win2_3.index t (0 : Fin 1) * 128 + 1 * j.val = j.val; rw [e0]; omega

theorem flushed_eq (c : Dev nD) (t : Fin cfg2.N) :
    (dat2 (F := Ideal) V c).flushed 4 t = ((cfg2.win 4).blk t).view.read (Elt Ideal)
      (Cert.Spec.upd128 (F := Ideal) (V c main_v59) (V c main_v41) (V c main_arg14) (V c main_arg15)) := by
  show (cfg2.win 4).cut (grid2.coords t) ((dat2 (F := Ideal) V c).after 4 t) = _
  rw [after2_out]
  funext y
  obtain ⟨r, j, rfl⟩ : ∃ (r : Fin 5000) (j : Fin 128), y = ix2 r j := ⟨y 0, y 1, eq_ix2 y⟩
  obtain ⟨-, -, -, -, -, -, -, e0, e1⟩ := idx_facts t
  have ht : t.val < 20 := t.isLt
  have hr : r.val < 5000 := r.isLt
  have hemb : ((cfg2.win 4).blk t).view.emb (ix2 r j) = ix2 (⟨5000 * t.val + r.val, by omega⟩ : Fin 100000) j := by
    funext a; apply Fin.ext
    match a with
    | ⟨0, _⟩ => show win2_4.index t (0 : Fin 2) * 5000 + 1 * r.val = 5000 * t.val + r.val; rw [e0]; omega
    | ⟨1, _⟩ => show win2_4.index t (1 : Fin 2) * 128 + 1 * j.val = j.val; rw [e1]; omega
  show k2_pay1 (F := Ideal) (iblk2 V c 0 t) (iblk2 V c 1 t) (iblk2 V c 2 t) (iblk2 V c 3 t) (ix2 r j)
    = Cert.Spec.upd128 (F := Ideal) (V c main_v59) (V c main_v41) (V c main_arg14) (V c main_arg15) (((cfg2.win 4).blk t).view.emb (ix2 r j))
  rw [hemb]
  exact Upd1.pay_block (iblk2 V c 0 t) (iblk2 V c 1 t) (iblk2 V c 2 t) (iblk2 V c 3 t) (V c main_v59) (V c main_v41) (V c main_arg14) (V c main_arg15)
    r j ⟨5000 * t.val + r.val, by omega⟩
    (fun k => blk0_read V c t r k _ rfl) (fun k => blk1_read V c t r k _ rfl) (fun k => blk2_read V c t k j) (blk3_read V c t j)

theorem mem_blk (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v60).slice (win2_4.rect t)).set ↔ _
  rw [View.set_slice_whole, Rect.mem_set_unit]
  exact Iff.rfl

theorem cover (i : S100000x128.Idx) : ∃ t : Fin cfg2.N, (cfg2.win 4).flush t = true ∧ i ∈ ((cfg2.win 4).blk t).view.set := by
  have hi0 : (i 0).val < 100000 := (i 0).isLt
  have hi1 : (i 1).val < 128 := (i 1).isLt
  have hq : (i 0).val / 5000 < 20 := by omega
  refine ⟨⟨(i 0).val / 5000, hq⟩, flush2_4 _, ?_⟩
  rw [mem_blk]
  obtain ⟨-, -, -, -, -, -, -, e0, e1⟩ := idx_facts ⟨(i 0).val / 5000, hq⟩
  have e0' : win2_4.index ⟨(i 0).val / 5000, hq⟩ (0 : Fin 2) = (i 0).val / 5000 := e0
  intro a
  match a with
  | ⟨0, _⟩ =>
    show win2_4.index ⟨(i 0).val / 5000, hq⟩ (0 : Fin 2) * 5000 ≤ (i 0).val ∧ (i 0).val < win2_4.index ⟨(i 0).val / 5000, hq⟩ (0 : Fin 2) * 5000 + 5000
    rw [e0']; omega
  | ⟨1, _⟩ =>
    show win2_4.index ⟨(i 0).val / 5000, hq⟩ (1 : Fin 2) * 128 ≤ (i 1).val ∧ (i 1).val < win2_4.index ⟨(i 0).val / 5000, hq⟩ (1 : Fin 2) * 128 + 128
    rw [e1]; omega

end Upd2

variable (V : (c : Dev nD) → (b : Ref sig .tc) → Buf (Elt Ideal) ((c : Thread nD τ).loc b))

theorem final2 (c : Dev nD) :
    (dat2 (F := Ideal) V c).arrAt 4 cfg2.N = Cert.Spec.upd128 (F := Ideal) (V c main_v59) (V c main_v41) (V c main_arg14) (V c main_arg15) :=
  (dat2 (F := Ideal) V c).arrAt_eq_of_cover 4 _ (fun t _ => Upd2.flushed_eq V c t) Upd2.cover

end Cert.KernelIdeal.Hand

end
-- ==== Proof.KI.ValPool.lean ====
import proofs.«419434_j67937792688559_2_alg».proof.Proof.KI.Reg3
import proofs.«419434_j67937792688559_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

private theorem mem_out (t : Fin cfg3.N) (i : S512x128.Idx) : i ∈ ((cfg3.win 2).blk t).view.set := by
  show i ∈ ((View.whole main_v62).slice (win3_2.rect t)).set
  rw [View.set_slice_whole]
  exact View.mem_set_unit_zero (funext fun a => by fin_cases a <;> rfl) _ i

/-- The output array after the region is the accumulator after all the points. -/
private theorem arr_eq_acc (c : Dev nD) : (dat3 (F := Ideal) V c).arrAt 2 cfg3.N = acc3 V c cfg3.N :=
  (dat3 V c).arrAt_eq_of_cover 2 _ (fun t _ => by
      show (cfg3.win 2).cut (grid3.coords t) ((dat3 V c).after 2 t) = _
      rw [after3_out]
      exact (Memref.read_access_unit_zero _ main_v62 (funext fun a => by fin_cases a <;> rfl) _ _).symm)
    fun i => ⟨⟨99, by decide⟩, (flush3_2 _).mpr rfl, mem_out _ i⟩

/-- The product that contracts the row axis of both operands, into the zero accumulator, at (g, f). -/
private theorem pool_matmul_apply (A : FVec Ideal S1000x512 .f32) (B : FVec Ideal S1000x128 .f32) (g : Fin 512) (f : Fin 128) :
    matmul dot_S1000x512_S1000x128_S512x128_0_0_1_1_n_n (some .fp32) A B (constant (F := Ideal) S512x128 .f32 0x00000000#32) (ix2 g f)
      = ∑ r : Fin 1000, A (ix2 r g) * B (ix2 r f) := by
  show FloatOps.matmul _ _ A B _ _ = _
  rw [Ideal.matmul_constant_zero_apply, ← Equiv.sum_comp (contrEquiv1 dot_S1000x512_S1000x128_S512x128_0_0_1_1_n_n 1000 rfl rfl).symm]
  refine Finset.sum_congr rfl fun k _ => ?_
  have hk := contrEquiv1_symm_val dot_S1000x512_S1000x128_S512x128_0_0_1_1_n_n 1000 rfl rfl k
  congr 2 <;> funext a <;> apply Fin.ext <;> match a with
    | ⟨0, _⟩ => first | exact (DotDims.lhsIdx_val_of_single _ rfl _ _).trans hk | exact (DotDims.rhsIdx_val_of_single _ rfl _ _).trans hk
    | ⟨1, _⟩ => rfl

private def hot (x : BitVec 32) (g : ℕ) : EReal := if x = BitVec.ofNat 32 g then 1 else 0

/-- Word equality as a float: 1 where the two words agree, else 0. -/
private theorem ind_apply {s : Shape} (X Y : IVec s 32) (hw) (i : s.Idx) :
    (sitofp (F := Ideal) .f32 (extui 32 (cmpi .eq X Y) hw) : FVec Ideal s .f32) i = if X i = Y i then 1 else 0 := by
  show (((BitVec.setWidth 32 (IntOp.cmpi .eq (X i) (Y i))).toInt : ℝ) : EReal) = _
  unfold IntOp.cmpi
  by_cases h : X i = Y i
  · rw [if_pos h, h]
    simp
  · rw [if_neg h]
    have : (X i == Y i) = false := by simpa using h
    simp [this]

private theorem pay2_apply (v3 : Vec Ideal S1000x128 .f32) (v5 : Vec Ideal S1000x1 .i32) (v13 : Vec Ideal S512x128 .f32) (g : Fin 512) (f : Fin 128) :
    k3_pay2 (F := Ideal) v3 v5 v13 (ix2 g f) = v13 (ix2 g f) + ∑ r : Fin 1000, hot (v5 (ix2 r 0)) g.val * v3 (ix2 r f) := by
  unfold k3_pay2
  simp only [shapeCast_self]
  rw [addf_apply, pool_matmul_apply]
  refine congrArg (v13 (ix2 g f) + ·) (Finset.sum_congr rfl fun r _ => ?_)
  rw [ind_apply, broadcastTo_apply v5 _ (ix2 r g) (ix2 r 0) fun a => match a with
    | ⟨0, _⟩ => (if_neg (show ¬(1000 : ℕ) = 1 by decide)).symm
    | ⟨1, _⟩ => (if_pos rfl).symm, iota_single_apply .tc S1000x512 32 1]
  rfl

private theorem pay1_apply (i : S512x128.Idx) : k3_pay1 (F := Ideal) i = 0 := by
  unfold k3_pay1
  rw [shapeCast_self]
  exact Ideal.ofBits_zero_f32

/-- An update lands on i exactly when its window start plus window coordinate is i's coordinate on every axis. -/
private theorem lands_iff {s si u : Shape} (d : ScatterDims s si u) {w : ℕ} (j : u.Idx) (idx : IVec si w) (i : s.Idx) :
    d.resultIdx? j idx = some i ↔ ∀ a, d.start j idx a + d.window j a = ((i a).val : ℤ) := by
  unfold ScatterDims.resultIdx?
  split
  · rename_i h
    rw [Option.some.injEq, funext_iff]
    refine forall_congr' fun a => ?_
    have := (h a).1
    rw [Fin.ext_iff]
    show (d.start j idx a + d.window j a).toNat = (i a).val ↔ _
    omega
  · rename_i h
    refine iff_of_false (by simp) fun k => h fun a => ?_
    have := (i a).isLt
    rw [k a]
    omega

/-- A 32-bit word is the word of a number below 512 exactly when its signed value is that number. -/
private theorem word_eq_iff_toInt (x : BitVec 32) (g : ℕ) (hg : g < 512) : x = BitVec.ofNat 32 g ↔ x.toInt = (g : ℤ) := by
  have e : (BitVec.ofNat 32 g).toInt = (g : ℤ) := by
    rw [BitVec.toInt_eq_toNat_cond, BitVec.toNat_ofNat, Nat.mod_eq_of_lt (by omega), if_pos (by omega)]
  rw [← e]
  exact BitVec.toInt_inj.symm

/-- Row n's update for feature f' lands on (g, f) exactly when the row's graph number is g and f' is f. -/
private theorem pool_lands_iff (b : IVec S100000x1 32) (n : Fin 100000) (f' : Fin 128) (g : Fin 512) (f : Fin 128) :
    Cert.ReferenceIdeal.scatter_S512x128_S100000x1_S100000x128_1_0_0_1.resultIdx? (ix2 n f') b = some (ix2 g f) ↔ b (ix2 n 0) = BitVec.ofNat 32 g.val ∧ f' = f := by
  have s0 : Cert.ReferenceIdeal.scatter_S512x128_S100000x1_S100000x128_1_0_0_1.start (ix2 n f') b (0 : Fin 2) = (b (ix2 n 0)).toInt :=
    (dif_pos (by decide)).trans (congrArg (fun k => (b k).toInt) (funext fun a => by fin_cases a <;> rfl))
  have s1 : Cert.ReferenceIdeal.scatter_S512x128_S100000x1_S100000x128_1_0_0_1.start (ix2 n f') b (1 : Fin 2) = 0 := dif_neg (by decide)
  have w0 : Cert.ReferenceIdeal.scatter_S512x128_S100000x1_S100000x128_1_0_0_1.window (ix2 n f') (0 : Fin 2) = 0 := dif_neg (by decide)
  have w1 : Cert.ReferenceIdeal.scatter_S512x128_S100000x1_S100000x128_1_0_0_1.window (ix2 n f') (1 : Fin 2) = f'.val := dif_pos (by decide)
  rw [lands_iff, Fin.forall_fin_two, s0, s1, w0, w1, word_eq_iff_toInt _ _ g.isLt, Fin.ext_iff]
  show (b (ix2 n 0)).toInt + ((0 : ℕ) : ℤ) = (g.val : ℤ) ∧ (0 : ℤ) + ((f'.val : ℕ) : ℤ) = (f.val : ℤ) ↔ _
  omega

/-- Blocks 0 and 1 of point t start at row 1000 t of the node rows and of the graph-number column. -/
private theorem in_index : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

private theorem rows_blk (c : Dev nD) (t : Fin cfg3.N) (r : Fin 1000) (f : Fin 128) (hi : 1000 * t.val + r.val < 100000) :
    (iblk3 V c 0 t : Vec Ideal S1000x128 .f32) (ix2 r f) = (V c main_v60 : Vec Ideal S100000x128 .f32) (ix2 ⟨1000 * t.val + r.val, hi⟩ f) := by
  obtain ⟨e0, e1, -, -⟩ := in_index t
  refine congrArg (V c main_v60) (funext fun a => Fin.ext ?_)
  match a with
  | ⟨0, _⟩ => show win3_0.index t (0 : Fin 2) * 1000 + 1 * r.val = 1000 * t.val + r.val; omega
  | ⟨1, _⟩ => show win3_0.index t (1 : Fin 2) * 128 + 1 * f.val = f.val; omega

private theorem gnum_blk (c : Dev nD) (t : Fin cfg3.N) (r : Fin 1000) (hi : 1000 * t.val + r.val < 100000) :
    (iblk3 V c 1 t : Vec Ideal S1000x1 .i32) (ix2 r 0) = (V c main_v61 : Vec Ideal S100000x1 .i32) (ix2 ⟨1000 * t.val + r.val, hi⟩ 0) := by
  obtain ⟨-, -, e2, e3⟩ := in_index t
  refine congrArg (V c main_v61) (funext fun a => Fin.ext ?_)
  match a with
  | ⟨0, _⟩ => show win3_1.index t (0 : Fin 2) * 1000 + 1 * r.val = 1000 * t.val + r.val; omega
  | ⟨1, _⟩ => show win3_1.index t (1 : Fin 2) * 1 + 1 * 0 = 0; omega

/-- Row i's contribution to graph g's feature f (zero past the last row). -/
private def term (h : Vec Ideal S100000x128 .f32) (b : Vec Ideal S100000x1 .i32) (g : ℕ) (f : Fin 128) (i : ℕ) : EReal :=
  if hi : i < 100000 then hot (b (ix2 ⟨i, hi⟩ 0)) g * h (ix2 ⟨i, hi⟩ f) else 0

/-- After n points the accumulator holds, at (g, f), the contributions of the rows below 1000 n. -/
private theorem acc_eq (c : Dev nD) (g : Fin 512) (f : Fin 128) : ∀ n : ℕ, n ≤ 100 →
    acc3 V c n (ix2 g f) = ∑ i ∈ Finset.range (1000 * n), term (V c main_v60) (V c main_v61) g.val f i
  | 0, _ => pay1_apply _
  | n + 1, hn => by
    have hlt : n < cfg3.N := lt_of_lt_of_eq hn N_3.symm
    rw [acc3_succ V c ⟨n, hlt⟩, pay2_apply, acc_eq c g f n (by omega), Nat.mul_succ, Finset.sum_range_add]
    refine congrArg (_ + ·) ?_
    rw [Finset.sum_range]
    refine Finset.sum_congr rfl fun r _ => ?_
    have hi : 1000 * n + r.val < 100000 := by omega
    rw [rows_blk V c ⟨n, hlt⟩ r f hi, gnum_blk V c ⟨n, hlt⟩ r hi, term, dif_pos hi]

/-- The reference's per-graph sum at (g, f). -/
private theorem pool2_apply (h : Vec Ideal S100000x128 .f32) (b : Vec Ideal S100000x1 .i32) (g : Fin 512) (f : Fin 128) :
    Cert.Spec.pool2 (F := Ideal) h b (ix2 g f) = ∑ n : Fin 100000, hot (b (ix2 n 0)) g.val * h (ix2 n f) := by
  show Ideal.ofBits .f32 0x00000000#32 + ∑ j ∈ Finset.univ.filter (fun j => Cert.ReferenceIdeal.scatter_S512x128_S100000x1_S100000x128_1_0_0_1.resultIdx? j b = some (ix2 g f)), h j = _
  rw [Ideal.ofBits_zero_f32, zero_add, Finset.sum_filter, sum_idx2]
  simp only [pool_lands_iff, hot, ite_and, Finset.sum_ite_irrel, Finset.sum_ite_eq', Finset.mem_univ, if_true,
    Finset.sum_const_zero, ite_mul, one_mul, zero_mul]

theorem final3 (c : Dev nD) :
    (dat3 (F := Ideal) V c).arrAt 2 cfg3.N = Cert.Spec.pool2 (F := Ideal) (V c main_v60) (V c main_v61) := by
  rw [arr_eq_acc, show cfg3.N = 100 from N_3]
  funext i
  obtain ⟨g, f, rfl⟩ : ∃ (g : Fin 512) (f : Fin 128), i = ix2 g f := ⟨i 0, i 1, eq_ix2 i⟩
  rw [acc_eq V c g f 100 (le_refl _), pool2_apply, Finset.sum_range]
  exact Finset.sum_congr rfl fun n _ => dif_pos n.isLt

end Cert.KernelIdeal.Hand

end
-- ==== Proof.KI.ValHead.lean ====
import proofs.«419434_j67937792688559_2_alg».proof.Proof.KI.Reg4
import proofs.«419434_j67937792688559_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.KernelVsHost

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-- A vector laid along every row: the kernel's and the host's spelling both read it at the column. -/
private theorem bias_eq {α : Type} {m n : ℕ} (b : (⟨1, ![n]⟩ : Shape).Idx → α) (h1 h2 g1 g2) :
    broadcastTo ⟨2, ![m, n]⟩ (shapeCast ⟨2, ![1, n]⟩ b h1) h2
      = broadcastInDim ⟨2, ![m, n]⟩ ![0, 1] g2 (broadcastInDim ⟨2, ![1, n]⟩ ![1] g1 b) := by
  funext i
  obtain ⟨p, k, rfl⟩ : ∃ p k, i = ix2 p k := ⟨i 0, i 1, eq_ix2 i⟩
  rw [broadcastTo_1b_ab_apply, shapeCast_a_1a_apply, broadcastInDim_oneRow_apply]
  exact (broadcastInDim_apply ![1] g1 b _ (ix1 k) fun a => match a with
    | ⟨0, _⟩ => by show k.val = if n = 1 then 0 else k.val; split <;> omega).symm

private theorem pay_eq_head (x0 : Vec Ideal S512x128 .f32) (x1 : Vec Ideal S128x256 .f32) (x2 : Vec Ideal S256 .f32)
    (x3 : Vec Ideal S256x32 .f32) (x4 : Vec Ideal S32 .f32) :
    k4_pay1 x0 x1 x2 x3 x4 = Cert.Spec.head (F := Ideal) x0 x1 x2 x3 x4 := by
  unfold k4_pay1 Cert.Spec.head Cert.Spec.leakyH Cert.Spec.headLin
  dsimp only
  rw [shapeCast_self, matmul_zero_eq_dotGeneral, matmul_zero_eq_dotGeneral, bias_eq, bias_eq,
    broadcastInDim_constant, broadcastInDim_constant]
  rfl

variable (V : (c : Dev nD) → (b : Ref sig .tc) → Buf (Elt Ideal) ((c : Thread nD τ).loc b))

theorem final4 (c : Dev nD) :
    (dat4 (F := Ideal) V c).arrAt 5 cfg4.N = Cert.Spec.head (F := Ideal) (V c main_v62) (V c main_arg16) (V c main_arg17) (V c main_arg18) (V c main_arg19) :=
  (dat4 (F := Ideal) V c).arrAt_eq_of_cover 5 _ (fun t _ => by
      show (cfg4.win 5).cut (grid4.coords t) ((dat4 (F := Ideal) V c).after 5 t) = _
      rw [after4_out]
      refine .trans ?_ ((pay_eq_head _ _ _ _ _).trans (Memref.read_access_unit_zero _ main_v63 (funext fun a => by fin_cases a <;> rfl) _ _).symm)
      show k4_pay1 _ _ _ _ _ = _
      congr 1 <;> exact Memref.read_access_unit_zero _ _ (funext fun a => by fin_cases a <;> rfl) _ _)
    fun i => ⟨t4_0, flush4_5 t4_0, by
      show i ∈ ((View.whole main_v63).slice (win4_5.rect t4_0)).set
      rw [View.set_slice_whole]
      exact View.mem_set_unit_zero (funext fun a => by fin_cases a <;> rfl) _ i⟩

end Cert.KernelIdeal.Hand

end
-- ==== Proof.KI.HostK.lean ====
import proofs.«419434_j67937792688559_2_alg».proof.Proof.Gen.KernelIdeal.Regions
import proofs.«419434_j67937792688559_2_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (outs : Outs (F := Ideal))

/-- An array nothing writes after the first stretch holds, after each of the three regions, what that stretch left in it. -/
private theorem keep (c : Dev nD) (r : Ref sig .tc)
    (h : r ∉ hostOps0_1_W ∧ r ∉ hostOps0_2_W ∧ r ∉ [main_v22] ∧ r ∉ hostOps1_W ∧ r ∉ hostOps1_1_W ∧ r ∉ hostOps1_2_W
      ∧ r ∉ [main_v41] ∧ r ∉ hostOps2_W ∧ r ∉ hostOps2_1_W ∧ r ∉ hostOps2_2_W ∧ r ∉ [main_v60]) :
    V4 m outs c r = V1 m c r ∧ V8 m outs c r = V1 m c r ∧ V12 m outs c r = V1 m c r := by
  obtain ⟨a1, a2, a3, b0, b1, b2, b3, d0, d1, d2, d3⟩ := h
  have e4 := (V4_of m outs c r a3).trans ((V3_of m c r a2).trans (V2_of m c r a1))
  have e8 := ((V8_of m outs c r b3).trans ((V7_of m outs c r b2).trans ((V6_of m outs c r b1).trans (V5_of m outs c r b0)))).trans e4
  exact ⟨e4, e8, ((V12_of m outs c r d3).trans ((V11_of m outs c r d2).trans ((V10_of m outs c r d1).trans (V9_of m outs c r d0)))).trans e8⟩

theorem host0 (c : Dev nD) :
    V3 m c main_v21 = Cert.Spec.agg64 (F := Ideal) (m ((c.tc : Thread nD τ).loc main_arg0)) (m ((c.tc : Thread nD τ).loc main_arg1))
      (m ((c.tc : Thread nD τ).loc main_arg2)) (m ((c.tc : Thread nD τ).loc main_arg4)) (m ((c.tc : Thread nD τ).loc main_arg5)) := by
  after_results_simp
  exact congrArg (Host.scatterAdd _ _ _) (congrArg (fun u => maximumf u _) (funext fun i => (add_assoc _ _ _).symm))

theorem host1 (c : Dev nD) :
    V7 m outs c main_v40 = Cert.Spec.agg128 (F := Ideal) (V4 m outs c main_v22) (m ((c.tc : Thread nD τ).loc main_arg1))
      (m ((c.tc : Thread nD τ).loc main_arg2)) (m ((c.tc : Thread nD τ).loc main_arg8)) (m ((c.tc : Thread nD τ).loc main_arg9)) := by
  after_results_simp
  rw [(keep m outs c main_v1 (by decide)).1, (keep m outs c main_v3 (by decide)).1,
    (keep m outs c main_arg2 (by decide)).1.trans (V1_of m c _ (by decide)),
    (keep m outs c main_arg8 (by decide)).1.trans (V1_of m c _ (by decide)),
    (keep m outs c main_arg9 (by decide)).1.trans (V1_of m c _ (by decide))]
  after_results_simp
  exact congrArg (Host.scatterAdd _ _ _) (congrArg (fun u => maximumf u _) (funext fun i => (add_assoc _ _ _).symm))

theorem host2 (c : Dev nD) :
    V11 m outs c main_v59 = Cert.Spec.agg128 (F := Ideal) (V8 m outs c main_v41) (m ((c.tc : Thread nD τ).loc main_arg1))
      (m ((c.tc : Thread nD τ).loc main_arg2)) (m ((c.tc : Thread nD τ).loc main_arg12)) (m ((c.tc : Thread nD τ).loc main_arg13)) := by
  after_results_simp
  rw [(keep m outs c main_v1 (by decide)).2.1, (keep m outs c main_v3 (by decide)).2.1,
    (keep m outs c main_arg2 (by decide)).2.1.trans (V1_of m c _ (by decide)),
    (keep m outs c main_arg12 (by decide)).2.1.trans (V1_of m c _ (by decide)),
    (keep m outs c main_arg13 (by decide)).2.1.trans (V1_of m c _ (by decide))]
  after_results_simp
  exact congrArg (Host.scatterAdd _ _ _) (congrArg (fun u => maximumf u _) (funext fun i => (add_assoc _ _ _).symm))

theorem host3 (c : Dev nD) :
    V13 m outs c main_v61 = broadcastInDim Cert.ReferenceIdeal.S100000x1 ![0] Cert.ReferenceIdeal.Gen.bcast_S100000_S100000x1_0 (m ((c.tc : Thread nD τ).loc main_arg3)) := by
  after_results_simp
  rw [(keep m outs c main_arg3 (by decide)).2.2.trans (V1_of m c _ (by decide))]
  funext i
  refine (shapeCast_apply _ shapeCasts_S100000_S100000x1 i (ix1 (i 0)) ?_).trans
    (broadcastInDim_apply _ _ _ i (ix1 (i 0)) fun a => ?_).symm
  · rewrite [Shape.rowMajor_val_one, Shape.rowMajor_val_two]
    have h1 : (i 1).val < 1 := (i 1).isLt
    show (i 0).val = (i 0).val * 1 + (i 1).val
    omega
  · match a with
    | ⟨0, _⟩ => exact (if_neg (show ¬(100000 : ℕ) = 1 by decide)).symm

end Cert.KernelIdeal.Hand

end
-- ==== Proof.KI.Value.lean ====
import proofs.«419434_j67937792688559_2_alg».proof.Proof.KI.Run
import proofs.«419434_j67937792688559_2_alg».proof.Proof.KI.ValUpd0
import proofs.«419434_j67937792688559_2_alg».proof.Proof.KI.ValUpd1
import proofs.«419434_j67937792688559_2_alg».proof.Proof.KI.ValUpd2
import proofs.«419434_j67937792688559_2_alg».proof.Proof.KI.ValPool
import proofs.«419434_j67937792688559_2_alg».proof.Proof.KI.ValHead
import proofs.«419434_j67937792688559_2_alg».proof.Proof.KI.HostK
import proofs.«419434_j67937792688559_2_alg».proof.Proof.Spec

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ)

section Carried
variable (outs : Outs (F := Ideal))
/-- A buffer no host stretch and no region writes up to an item of @main holds there what the launch put in it. -/
theorem kept3 (c : Dev nD) (r : Ref sig .tc) (h : r ∉ hostOps0_W ∧ r ∉ hostOps0_1_W ∧ r ∉ hostOps0_2_W) :
    V3 m c r = m ((c.tc : Thread nD τ).loc r) :=
  (V3_of m c r h.2.2).trans <| (V2_of m c r h.2.1).trans (V1_of m c r h.1)
theorem V7_to4 (c : Dev nD) (r : Ref sig .tc) (h : r ∉ hostOps1_W ∧ r ∉ hostOps1_1_W ∧ r ∉ hostOps1_2_W) :
    V7 m outs c r = V4 m outs c r :=
  (V7_of m outs c r h.2.2).trans <| (V6_of m outs c r h.2.1).trans (V5_of m outs c r h.1)
theorem V11_to8 (c : Dev nD) (r : Ref sig .tc) (h : r ∉ hostOps2_W ∧ r ∉ hostOps2_1_W ∧ r ∉ hostOps2_2_W) :
    V11 m outs c r = V8 m outs c r :=
  (V11_of m outs c r h.2.2).trans <| (V10_of m outs c r h.2.1).trans (V9_of m outs c r h.1)
theorem kept7 (c : Dev nD) (r : Ref sig .tc) (h : (r ∉ hostOps0_W ∧ r ∉ hostOps0_1_W ∧ r ∉ hostOps0_2_W) ∧ r ∉ ([main_v22] : List (Ref sig .tc))
    ∧ r ∉ hostOps1_W ∧ r ∉ hostOps1_1_W ∧ r ∉ hostOps1_2_W) : V7 m outs c r = m ((c.tc : Thread nD τ).loc r) :=
  (V7_to4 m outs c r h.2.2).trans <| (V4_of m outs c r h.2.1).trans (kept3 m c r h.1)
theorem kept11 (c : Dev nD) (r : Ref sig .tc) (h : ((r ∉ hostOps0_W ∧ r ∉ hostOps0_1_W ∧ r ∉ hostOps0_2_W) ∧ r ∉ ([main_v22] : List (Ref sig .tc))
    ∧ r ∉ hostOps1_W ∧ r ∉ hostOps1_1_W ∧ r ∉ hostOps1_2_W) ∧ r ∉ ([main_v41] : List (Ref sig .tc))
    ∧ r ∉ hostOps2_W ∧ r ∉ hostOps2_1_W ∧ r ∉ hostOps2_2_W) : V11 m outs c r = m ((c.tc : Thread nD τ).loc r) :=
  (V11_to8 m outs c r h.2.2).trans <| (V8_of m outs c r h.2.1).trans (kept7 m outs c r h.1)
theorem kept14 (c : Dev nD) (r : Ref sig .tc) (h : (((r ∉ hostOps0_W ∧ r ∉ hostOps0_1_W ∧ r ∉ hostOps0_2_W) ∧ r ∉ ([main_v22] : List (Ref sig .tc))
    ∧ r ∉ hostOps1_W ∧ r ∉ hostOps1_1_W ∧ r ∉ hostOps1_2_W) ∧ r ∉ ([main_v41] : List (Ref sig .tc))
    ∧ r ∉ hostOps2_W ∧ r ∉ hostOps2_1_W ∧ r ∉ hostOps2_2_W) ∧ r ∉ ([main_v60] : List (Ref sig .tc)) ∧ r ∉ hostOps3_W
    ∧ r ∉ ([main_v62] : List (Ref sig .tc))) : V14 m outs c r = m ((c.tc : Thread nD τ).loc r) :=
  (V14_of m outs c r h.2.2.2).trans <| (V13_of m outs c r h.2.2.1).trans <| (V12_of m outs c r h.2.1).trans (kept11 m outs c r h.1)
end Carried

theorem V4_main_v22_o (c : Dev nD) : V4 m (outs1 m) c main_v22 = o4 m c := by
  simp only [V4, Function.update_self, outs1, dif_pos]
theorem V8_main_v41_o (c : Dev nD) : V8 m (outs2 m) c main_v41 = o8 m c := by
  simp only [V8, Function.update_self, outs2, dif_pos, Nat.reduceEqDiff, if_true]
theorem V12_main_v60_o (c : Dev nD) : V12 m (outs3 m) c main_v60 = o12 m c := by
  simp only [V12, Function.update_self, outs3, dif_pos, Nat.reduceEqDiff, if_true]
theorem V14_main_v62_o (c : Dev nD) : V14 m (outs4 m) c main_v62 = o14 m c := by
  simp only [V14, Function.update_self, outs4, dif_pos, Nat.reduceEqDiff, if_true]

theorem layer1 (c : Dev nD) :
    o4 m c = Cert.Spec.upd64 (F := Ideal) (Cert.Spec.agg64 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))) (m ((c.tc : Thread nD τ).loc main_arg0)) (m ((c.tc : Thread nD τ).loc main_arg6)) (m ((c.tc : Thread nD τ).loc main_arg7)) := by
  have h := final0 (En0 m) c
  dsimp only [En0] at h
  rw [host0 m c, kept3 m c main_arg0 (by decide), kept3 m c main_arg6 (by decide), kept3 m c main_arg7 (by decide)] at h
  exact h

theorem layer2 (c : Dev nD) :
    o8 m c = Cert.Spec.upd128 (F := Ideal) (Cert.Spec.agg128 (F := Ideal) (o4 m c) (m ((c.tc : Thread nD τ).loc main_arg1)) (m ((c.tc : Thread nD τ).loc main_arg2)) (m ((c.tc : Thread nD τ).loc main_arg8)) (m ((c.tc : Thread nD τ).loc main_arg9))) (o4 m c) (m ((c.tc : Thread nD τ).loc main_arg10)) (m ((c.tc : Thread nD τ).loc main_arg11)) := by
  have h := final1 (En1 m) c
  dsimp only [En1] at h
  rw [host1 m (outs1 m) c, V7_to4 m (outs1 m) c main_v22 (by decide), V4_main_v22_o m c, kept7 m (outs1 m) c main_arg10 (by decide), kept7 m (outs1 m) c main_arg11 (by decide)] at h
  exact h

theorem layer3 (c : Dev nD) :
    o12 m c = Cert.Spec.upd128 (F := Ideal) (Cert.Spec.agg128 (F := Ideal) (o8 m c) (m ((c.tc : Thread nD τ).loc main_arg1)) (m ((c.tc : Thread nD τ).loc main_arg2)) (m ((c.tc : Thread nD τ).loc main_arg12)) (m ((c.tc : Thread nD τ).loc main_arg13))) (o8 m c) (m ((c.tc : Thread nD τ).loc main_arg14)) (m ((c.tc : Thread nD τ).loc main_arg15)) := by
  have h := final2 (En2 m) c
  dsimp only [En2] at h
  rw [host2 m (outs2 m) c, V11_to8 m (outs2 m) c main_v41 (by decide), V8_main_v41_o m c, kept11 m (outs2 m) c main_arg14 (by decide), kept11 m (outs2 m) c main_arg15 (by decide)] at h
  exact h

theorem pooled (c : Dev nD) : o14 m c = Cert.Spec.pool (F := Ideal) (o12 m c) (m ((c.tc : Thread nD τ).loc main_arg3)) := by
  have h := final3 (En3 m) c
  dsimp only [En3] at h
  rw [host3 m (outs3 m) c, V13_of m (outs3 m) c main_v60 (by decide), V12_main_v60_o m c] at h
  exact h

theorem headed (c : Dev nD) : o15 m c = Cert.Spec.head (F := Ideal) (o14 m c) (m ((c.tc : Thread nD τ).loc main_arg16)) (m ((c.tc : Thread nD τ).loc main_arg17)) (m ((c.tc : Thread nD τ).loc main_arg18)) (m ((c.tc : Thread nD τ).loc main_arg19)) := by
  have h := final4 (En4 m) c
  dsimp only [En4] at h
  rw [V14_main_v62_o m c, kept14 m (outs4 m) c main_arg16 (by decide), kept14 m (outs4 m) c main_arg17 (by decide), kept14 m (outs4 m) c main_arg18 (by decide), kept14 m (outs4 m) c main_arg19 (by decide)] at h
  exact h

theorem kernel_value (c : Dev nD) :
    o15 m c = Cert.Spec.net (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  rw [headed m c, pooled m c, layer3 m c, layer2 m c, layer1 m c]
  rfl

end Cert.KernelIdeal.Hand

end
-- ==== Proof.RefStages.lean ====
import proofs.«419434_j67937792688559_2_alg».proof.Proof.RefRunP
import proofs.«419434_j67937792688559_2_alg».proof.Proof.Spec
import Idealize.ShloMosaic.Lib.Pipeline.Frame

noncomputable section

namespace Cert.RefSide

open Cert.ReferenceIdeal Cert.ReferenceIdeal.Gen Cert.Spec Idealize.ShloMosaic Idealize.ShloMosaic.TcCoe Idealize.SL.Sem Idealize.ShloMosaic.StableHlo

variable {F : FTy → Type} [FloatOps F]

local notation:max W:max "⟪" r "⟫" => W (Proc.devRef Proc.tc r)

private def outs : List (Ref sig .tc) :=
  [main_v0, main_v1, main_v2, main_v3, main_c, main_v4, main_v5, main_c_0, main_v6, main_v7, main_v8, main_v9,
   main_v10, main_v11, main_v12, main_v13, main_v14, main_v15, main_call0_cst, main_call0_v0, main_v16, main_cst, main_v17, main_v18,
   main_v19, main_v20, main_v21, main_v22, main_v23, main_v24, main_cst_1, main_v25, main_v26, main_cst_2, main_v27, main_v28,
   main_v29, main_c_3, main_v30, main_v31, main_c_4, main_v32, main_v33, main_v34, main_v35, main_v36, main_v37, main_v38,
   main_v39, main_v40, main_v41, main_call2_cst, main_call2_v0, main_v42, main_cst_5, main_v43, main_v44, main_v45, main_v46, main_v47,
   main_v48, main_v49, main_v50, main_cst_6, main_v51, main_v52, main_cst_7, main_v53, main_v54, main_v55, main_c_8, main_v56,
   main_v57, main_c_9, main_v58, main_v59, main_v60, main_v61, main_v62, main_v63, main_v64, main_v65, main_v66, main_v67,
   main_call4_cst, main_call4_v0, main_v68, main_cst_10, main_v69, main_v70, main_v71, main_v72, main_v73, main_v74, main_v75, main_v76,
   main_cst_11, main_v77, main_v78, main_cst_12, main_v79, main_v80, main_v81, main_cst_13, main_v82, main_v83, main_v84, main_v85,
   main_v86, main_v87, main_v88, main_cst_14, main_v89, main_v90, main_cst_15, main_v91, main_v92, main_v93, main_v94, main_v95,
   main_v96, main_v97]

-- every operation writes one buffer, its own result
private theorem outs_spec :
    (ValueP.ops (F := F)).map (fun op => op.writes) = outs.map fun y => {Proc.devRef (τ := τ) .tc y} := rfl

private theorem keeps {l : List (HloOp τ sig (Elt F))} {L : List (Ref sig .tc)}
    (h : l.map (fun op => op.writes) = L.map fun y => {Proc.devRef (τ := τ) .tc y}) {r : Ref sig .tc} (hr : r ∉ L)
    (W : Valuation τ sig (Elt F)) : (after l W)⟪r⟫ = W⟪r⟫ :=
  after_of_forall_not_mem l W fun op hop hb => by
    have hm := List.mem_map_of_mem (f := fun op : HloOp τ sig (Elt F) => op.writes) hop
    rw [h] at hm
    obtain ⟨y, hy, he⟩ := List.mem_map.mp hm
    rw [← he, Finset.mem_singleton] at hb
    exact hr (Proc.devRef_injective _ hb ▸ hy)

private def piece (i n : Nat) : List (HloOp τ sig (Elt F)) := (ValueP.ops.drop i).take n

private theorem piece_keeps (i n : Nat) {r : Ref sig .tc} (hr : r ∉ (outs.drop i).take n) (W : Valuation τ sig (Elt F)) :
    (after (piece i n) W)⟪r⟫ = W⟪r⟫ :=
  keeps (by simp only [piece, List.map_take, List.map_drop, outs_spec]) hr W

-- the two valuations agree at every buffer no operation writes: the arguments
private abbrev SameArgs (W V : Valuation τ sig (Elt F)) : Prop :=
  ∀ r, r ∉ outs → W (no_index (Proc.devRef .tc r)) = V⟪r⟫

private theorem piece_args (i n : Nat) {W V : Valuation τ sig (Elt F)} (hA : SameArgs W V) :
    SameArgs (after (piece i n) W) V :=
  fun r hr => (piece_keeps i n (fun h => hr (List.mem_of_mem_drop (List.mem_of_mem_take h))) W).trans (hA r hr)

section Stages
variable (V : Valuation τ sig (Elt F))

private def row0 : Arr F S1600000 .i32 :=
  shapeCast _ (extractStridedSlice S1x1600000 ![0, 0] (V⟪main_arg1⟫) slices_S2x1600000_S1x1600000_0_0) shapeCasts_S1x1600000_S1600000
private def row1 : Arr F S1600000 .i32 :=
  shapeCast _ (extractStridedSlice S1x1600000 ![1, 0] (V⟪main_arg1⟫) slices_S2x1600000_S1x1600000_1_0) shapeCasts_S1x1600000_S1600000
private def H1 := h1 (V⟪main_arg0⟫) (V⟪main_arg1⟫) (V⟪main_arg2⟫) (V⟪main_arg4⟫) (V⟪main_arg5⟫) (V⟪main_arg6⟫) (V⟪main_arg7⟫)
private def H2 := upd128 (agg128 (H1 V) (V⟪main_arg1⟫) (V⟪main_arg2⟫) (V⟪main_arg8⟫) (V⟪main_arg9⟫)) (H1 V) (V⟪main_arg10⟫) (V⟪main_arg11⟫)
private def H3 := upd128 (agg128 (H2 V) (V⟪main_arg1⟫) (V⟪main_arg2⟫) (V⟪main_arg12⟫) (V⟪main_arg13⟫)) (H2 V) (V⟪main_arg14⟫) (V⟪main_arg15⟫)

variable {V} {W : Valuation τ sig (Elt F)} (hA : SameArgs W V)
include hA

private theorem layer1 : (after (piece 0 37) W)⟪main_v1⟫ = row0 V ∧ (after (piece 0 37) W)⟪main_v3⟫ = row1 V
    ∧ (after (piece 0 37) W)⟪main_v29⟫ = H1 V := by
  refine ⟨?_, ?_, ?_⟩ <;>
  · simp only [piece, ValueP.ops, List.drop_zero, List.take_succ_cons, List.take_zero]
    after_results_simp
    simp (disch := decide) only [hA]
    rfl

private theorem layer2 (h1 : W⟪main_v1⟫ = row0 V) (h3 : W⟪main_v3⟫ = row1 V) (h : W⟪main_v29⟫ = H1 V) :
    (after (piece 37 33) W)⟪main_v55⟫ = H2 V := by
  simp only [piece, ValueP.ops, List.drop_succ_cons, List.drop_zero, List.take_succ_cons, List.take_zero]
  after_results_simp
  simp (disch := decide) only [hA, h1, h3, h]
  rfl

private theorem layer3 (h1 : W⟪main_v1⟫ = row0 V) (h3 : W⟪main_v3⟫ = row1 V) (h : W⟪main_v55⟫ = H2 V) :
    (after (piece 70 33) W)⟪main_v81⟫ = H3 V := by
  simp only [piece, ValueP.ops, List.drop_succ_cons, List.drop_zero, List.take_succ_cons, List.take_zero]
  after_results_simp
  simp (disch := decide) only [hA, h1, h3, h]
  rfl

private theorem tail (h : W⟪main_v81⟫ = H3 V) :
    (after (piece 103 19) W)⟪main_v97⟫ = head (pool (H3 V) (V⟪main_arg3⟫)) (V⟪main_arg16⟫) (V⟪main_arg17⟫) (V⟪main_arg18⟫) (V⟪main_arg19⟫) := by
  simp only [piece, ValueP.ops, List.drop_succ_cons, List.drop_zero, List.take_succ_cons, List.take_zero]
  after_results_simp
  simp (disch := decide) only [hA, h]
  rfl

end Stages

theorem ref_result (m : (ℓ : Loc nD τ sig) → Buf (Elt F) ℓ) (c : Dev nD) :
    after (Cert.ReferenceIdeal.ValueP.ops (F := F)) (launchContents m c) (Proc.devRef .tc main_v97)
      = Cert.Spec.net (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  have hcut : ValueP.ops (F := F) = piece 0 37 ++ (piece 37 33 ++ (piece 70 33 ++ piece 103 19)) := rfl
  rw [hcut, after_append, after_append, after_append]
  have A0 : SameArgs (launchContents m c) (launchContents m c) := fun _ _ => rfl
  obtain ⟨p1, p3, p29⟩ := layer1 A0
  have A1 := piece_args 0 37 A0
  have A2 := piece_args 37 33 A1
  exact (tail (piece_args 70 33 A2) (layer3 A2 ((piece_keeps 37 33 (r := main_v1) (by decide) _).trans p1)
    ((piece_keeps 37 33 (r := main_v3) (by decide) _).trans p3) (layer2 A1 p1 p3 p29)) :)

end Cert.RefSide

end
-- ==== Proof.lean ====
import proofs.«419434_j67937792688559_2_alg».proof.Defs
import proofs.«419434_j67937792688559_2_alg».proof.Proof.Gen.Kernel
import proofs.«419434_j67937792688559_2_alg».proof.Proof.Gen.KernelIdeal
import proofs.«419434_j67937792688559_2_alg».proof.Proof.Gen.ReferenceIdeal
import proofs.«419434_j67937792688559_2_alg».proof.Proof.Gen.Pre_finite_inputs
import proofs.«419434_j67937792688559_2_alg».proof.Proof.K.Run
import proofs.«419434_j67937792688559_2_alg».proof.Proof.KI.Run
import proofs.«419434_j67937792688559_2_alg».proof.Proof.KI.Value
import proofs.«419434_j67937792688559_2_alg».proof.Proof.RefRunP
import proofs.«419434_j67937792688559_2_alg».proof.Proof.RefStages
import Idealize.ShloMosaic.Adequacy
import Idealize.ShloMosaic.Init

noncomputable section

namespace Cert.Proof

open Idealize.ShloMosaic Idealize.SL.Sem

open Cert.Kernel Cert.Kernel.Hand Cert.Kernel.Gen in
theorem frame_p : Cert.frame_Kernel := fun m ρ _ =>
  (θ_run Cert.Kernel.defs _ _).mono (fun r h c =>
   ⟨(h c _ (mem_uc main_arg0 (by decide))).trans (V15_main_arg0 m _ c),
    (h c _ (mem_uc main_arg1 (by decide))).trans (V15_main_arg1 m _ c),
    (h c _ (mem_uc main_arg2 (by decide))).trans (V15_main_arg2 m _ c),
    (h c _ (mem_uc main_arg3 (by decide))).trans (V15_main_arg3 m _ c),
    (h c _ (mem_uc main_arg4 (by decide))).trans (V15_main_arg4 m _ c),
    (h c _ (mem_uc main_arg5 (by decide))).trans (V15_main_arg5 m _ c),
    (h c _ (mem_uc main_arg6 (by decide))).trans (V15_main_arg6 m _ c),
    (h c _ (mem_uc main_arg7 (by decide))).trans (V15_main_arg7 m _ c),
    (h c _ (mem_uc main_arg8 (by decide))).trans (V15_main_arg8 m _ c),
    (h c _ (mem_uc main_arg9 (by decide))).trans (V15_main_arg9 m _ c),
    (h c _ (mem_uc main_arg10 (by decide))).trans (V15_main_arg10 m _ c),
    (h c _ (mem_uc main_arg11 (by decide))).trans (V15_main_arg11 m _ c),
    (h c _ (mem_uc main_arg12 (by decide))).trans (V15_main_arg12 m _ c),
    (h c _ (mem_uc main_arg13 (by decide))).trans (V15_main_arg13 m _ c),
    (h c _ (mem_uc main_arg14 (by decide))).trans (V15_main_arg14 m _ c),
    (h c _ (mem_uc main_arg15 (by decide))).trans (V15_main_arg15 m _ c),
    (h c _ (mem_uc main_arg16 (by decide))).trans (V15_main_arg16 m _ c),
    (h c _ (mem_uc main_arg17 (by decide))).trans (V15_main_arg17 m _ c),
    (h c _ (mem_uc main_arg18 (by decide))).trans (V15_main_arg18 m _ c),
    (h c _ (mem_uc main_arg19 (by decide))).trans (V15_main_arg19 m _ c)⟩) (run_all (F := Bits) m ρ)

open Cert.KernelIdeal Cert.KernelIdeal.Hand Cert.KernelIdeal.Gen in
theorem frame_pi : Cert.frame_KernelIdeal := fun m ρ _ =>
  (θ_run Cert.KernelIdeal.defs _ _).mono (fun r h c =>
   ⟨(h c _ (mem_uc main_arg0 (by decide))).trans (V15_main_arg0 m _ c),
    (h c _ (mem_uc main_arg1 (by decide))).trans (V15_main_arg1 m _ c),
    (h c _ (mem_uc main_arg2 (by decide))).trans (V15_main_arg2 m _ c),
    (h c _ (mem_uc main_arg3 (by decide))).trans (V15_main_arg3 m _ c),
    (h c _ (mem_uc main_arg4 (by decide))).trans (V15_main_arg4 m _ c),
    (h c _ (mem_uc main_arg5 (by decide))).trans (V15_main_arg5 m _ c),
    (h c _ (mem_uc main_arg6 (by decide))).trans (V15_main_arg6 m _ c),
    (h c _ (mem_uc main_arg7 (by decide))).trans (V15_main_arg7 m _ c),
    (h c _ (mem_uc main_arg8 (by decide))).trans (V15_main_arg8 m _ c),
    (h c _ (mem_uc main_arg9 (by decide))).trans (V15_main_arg9 m _ c),
    (h c _ (mem_uc main_arg10 (by decide))).trans (V15_main_arg10 m _ c),
    (h c _ (mem_uc main_arg11 (by decide))).trans (V15_main_arg11 m _ c),
    (h c _ (mem_uc main_arg12 (by decide))).trans (V15_main_arg12 m _ c),
    (h c _ (mem_uc main_arg13 (by decide))).trans (V15_main_arg13 m _ c),
    (h c _ (mem_uc main_arg14 (by decide))).trans (V15_main_arg14 m _ c),
    (h c _ (mem_uc main_arg15 (by decide))).trans (V15_main_arg15 m _ c),
    (h c _ (mem_uc main_arg16 (by decide))).trans (V15_main_arg16 m _ c),
    (h c _ (mem_uc main_arg17 (by decide))).trans (V15_main_arg17 m _ c),
    (h c _ (mem_uc main_arg18 (by decide))).trans (V15_main_arg18 m _ c),
    (h c _ (mem_uc main_arg19 (by decide))).trans (V15_main_arg19 m _ c)⟩) (run_all (F := Ideal) m ρ)

theorem frame_ri : Cert.frame_ReferenceIdeal := fun m ρ _ =>
  (θ_run Cert.ReferenceIdeal.defs _ _).mono (fun _ h c => (h c).2) (Cert.ReferenceIdeal.ValueP.run (F := Ideal) m ρ)

open Cert.KernelIdeal Cert.KernelIdeal.Hand Cert.KernelIdeal.Gen in
/-- From memories that agree on the arguments both programs end with the network of those arguments in their result buffers. -/
theorem algebraic : Cert.algebraic_KernelIdeal_ReferenceIdeal := by
  intro m ρ m' ρ' _ hagree
  refine ⟨fun c => o15 (F := Ideal) m c, (θ_run Cert.KernelIdeal.defs _ _).mono (fun r h c =>
   ⟨(h c _ (mem_uc main_v63 (by decide))).trans (V15_main_v63 m c),
    (h c _ (mem_uc main_arg0 (by decide))).trans (V15_main_arg0 m _ c),
    (h c _ (mem_uc main_arg1 (by decide))).trans (V15_main_arg1 m _ c),
    (h c _ (mem_uc main_arg2 (by decide))).trans (V15_main_arg2 m _ c),
    (h c _ (mem_uc main_arg3 (by decide))).trans (V15_main_arg3 m _ c),
    (h c _ (mem_uc main_arg4 (by decide))).trans (V15_main_arg4 m _ c),
    (h c _ (mem_uc main_arg5 (by decide))).trans (V15_main_arg5 m _ c),
    (h c _ (mem_uc main_arg6 (by decide))).trans (V15_main_arg6 m _ c),
    (h c _ (mem_uc main_arg7 (by decide))).trans (V15_main_arg7 m _ c),
    (h c _ (mem_uc main_arg8 (by decide))).trans (V15_main_arg8 m _ c),
    (h c _ (mem_uc main_arg9 (by decide))).trans (V15_main_arg9 m _ c),
    (h c _ (mem_uc main_arg10 (by decide))).trans (V15_main_arg10 m _ c),
    (h c _ (mem_uc main_arg11 (by decide))).trans (V15_main_arg11 m _ c),
    (h c _ (mem_uc main_arg12 (by decide))).trans (V15_main_arg12 m _ c),
    (h c _ (mem_uc main_arg13 (by decide))).trans (V15_main_arg13 m _ c),
    (h c _ (mem_uc main_arg14 (by decide))).trans (V15_main_arg14 m _ c),
    (h c _ (mem_uc main_arg15 (by decide))).trans (V15_main_arg15 m _ c),
    (h c _ (mem_uc main_arg16 (by decide))).trans (V15_main_arg16 m _ c),
    (h c _ (mem_uc main_arg17 (by decide))).trans (V15_main_arg17 m _ c),
    (h c _ (mem_uc main_arg18 (by decide))).trans (V15_main_arg18 m _ c),
    (h c _ (mem_uc main_arg19 (by decide))).trans (V15_main_arg19 m _ c)⟩) (run_all (F := Ideal) m ρ), ?_⟩
  refine (θ_run Cert.ReferenceIdeal.defs _ _).mono (fun _ h c => ⟨(h c).1.trans ?_, (h c).2⟩)
    (Cert.ReferenceIdeal.ValueP.run (F := Ideal) m' ρ')
  have hr := Cert.RefSide.ref_result (F := Ideal) m' c
  obtain ⟨h0, h1, h2, h3, h4, h5, h6, h7, h8, h9, h10, h11, h12, h13, h14, h15, h16, h17, h18, h19⟩ := hagree c
  rw [h0, h1, h2, h3, h4, h5, h6, h7, h8, h9, h10, h11, h12, h13, h14, h15, h16, h17, h18, h19] at hr
  exact hr.trans (kernel_value m c).symm

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
